-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S4096 : Shape := ⟨1, ![4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn {F : FTy → Type} [FloatOps F] (main_arg0 : FVec F S4096x768 .f32) (main_arg1 : FVec F S4096x768 .f32) (main_arg2 : IVec S4096 32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  main_v8
-- ==== Kernel.lean ====
abbrev S4096x768 : Shape := ⟨2, ![4096, 768]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024x768 : Shape := ⟨2, ![1024, 768]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 40
  | .vmem => 28
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096, .i32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x768, .f32⟩
  | .hbm, ⟨12, _⟩ => ⟨S4096x768, .f32⟩
  | .hbm, ⟨13, _⟩ => ⟨S4096x768, .bf16⟩
  | .hbm, ⟨14, _⟩ => ⟨S4096x768, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x768, .f32⟩
  | .hbm, ⟨23, _⟩ => ⟨S4096x768, .f32⟩
  | .hbm, ⟨24, _⟩ => ⟨S4096x768, .bf16⟩
  | .hbm, ⟨25, _⟩ => ⟨S4096x1, .i32⟩
  | .hbm, ⟨26, _⟩ => ⟨S1x4096, .i32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x768, .bf16⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x1, .i32⟩
  | .local _ .vmem, ⟨19, _⟩ => ⟨S1024x1, .i32⟩
  | .local _ .vmem, ⟨20, _⟩ => ⟨S1x1024, .i32⟩
  | .local _ .vmem, ⟨21, _⟩ => ⟨S1x1024, .i32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc1_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_31 : BitVec 32 := 0#32
  let v57 : BitVec 1 := Scalar.cmpi .ne v56 c0_i32_31
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  bitsLt_bf16_f32 : FTy.bits .bf16 < FTy.bits .f32
  shapeCasts_S4096_S4096x1 : S4096.ShapeCasts S4096x1
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reducesTo_S4096x1_S_d0_1 : S4096x1.ReducesTo [0, 1] S_
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .bf16 = 32 ∨ (Rect.block (s := S4096x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S4096x768.size a
  hwx0_1 : ∀ i : grid0.Coords, EltTy.bits .bf16 = 32 ∨ (Rect.block (s := S4096x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .i32 = 32 ∨ (Rect.block (s := S1x4096) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S4096x768.size a
  hwx1_0 : ∀ i : grid1.Coords, EltTy.bits .bf16 = 32 ∨ (Rect.block (s := S4096x768) S1024x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S4096x768.size a
  hwx1_1 : ∀ i : grid1.Coords, EltTy.bits .bf16 = 32 ∨ (Rect.block (s := S4096x768) S1024x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .i32 = 32 ∨ (Rect.block (s := S4096x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .i32 = 32 ∨ (Rect.block (s := S1x4096) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_v5) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v11) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x768 : Shape := ⟨2, ![4096, 768]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 82
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096, .i32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x768, .f32⟩
  | .hbm, ⟨22, _⟩ => ⟨S4096x768, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x1, .i32⟩
  | .hbm, ⟨28, _⟩ => ⟨S1x4096, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S1x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S1x4096, .f32⟩
  | .hbm, ⟨68, _⟩ => ⟨S1x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩
abbrev main_call3_cst : Ref sig .tc := ⟨.hbm, 56, rfl⟩
abbrev main_call3_v0 : Ref sig .tc := ⟨.hbm, 57, rfl⟩
abbrev main_call3_cst_0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_cst_1 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_v25 : Ref sig .tc := ⟨.hbm, 70, rfl⟩
abbrev main_v26 : Ref sig .tc := ⟨.hbm, 71, rfl⟩
abbrev main_cst_5 : Ref sig .tc := ⟨.hbm, 72, rfl⟩
abbrev main_v27 : Ref sig .tc := ⟨.hbm, 73, rfl⟩
abbrev main_cst_6 : Ref sig .tc := ⟨.hbm, 74, rfl⟩
abbrev main_v28 : Ref sig .tc := ⟨.hbm, 75, rfl⟩
abbrev main_cst_7 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_8 : Ref sig .tc := ⟨.hbm, 80, rfl⟩
abbrev main_v32 : Ref sig .tc := ⟨.hbm, 81, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  reducesTo_S4096x4096_S4096_d0 : S4096x4096.ReducesTo [0] S4096
  dot_S4096x768_S4096x768_S4096x4096_1_1_0_0_n_n_wf : DotDims.WF S4096x768 S4096x768 S4096x4096 [1] [1] [0] [0] [] []

variable [Facts₀]

def dot_S4096x768_S4096x768_S4096x4096_1_1_0_0_n_n : DotDims S4096x768 S4096x768 S4096x4096 where
  lhsContracting := [1]
  rhsContracting := [1]
  lhsNonContracting := [0]
  rhsNonContracting := [0]
  lhsBatch := []
  rhsBatch := []
  wf := dot_S4096x768_S4096x768_S4096x4096_1_1_0_0_n_n_wf

class Facts : Prop extends Facts₀ where

variable [Facts]
-- ==== Proof.K.Step.lean ====
import proofs.«145934_j43250320671200_1_alg».proof.Proof.Gen.Kernel.Launch
import proofs.«145934_j43250320671200_1_alg».proof.Proof.Gen.Kernel.Skeleton
import proofs.«145934_j43250320671200_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Pt

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first column of the grid (the statistics restart), as the body tests it. -/
abbrev condA (i : grid0.Coords) : Prop := (Scalar.cmpi .ne (Scalar.extui (Scalar.cmpi .eq (BitVec.ofNat 32 (i 1).val) 0#32)) 0#32) = 1#1
/-- The last column (the row block's loss is stored). -/
abbrev condC (i : grid0.Coords) : Prop := k0_cond2 i = 1#1

/-- A row block's running maximum, rescaled sum of exponentials, masked count and masked sum. -/
abbrev St (F : FTy → Type) [FloatOps F] : Type := Vec F S1024x1 .f32 × Vec F S1024x1 .f32 × Vec F S1024x1 .f32 × Vec F S1024x1 .f32

def stepM (x2 x3 : Vec F S1024x768 .bf16) (xm : Vec F S1024x1 .f32) : Vec F S1024x1 .f32 := k0_pay4 (k0_pay12 x2 x3 xm)
def stepL (x2 x3 : Vec F S1024x768 .bf16) (xm xl : Vec F S1024x1 .f32) : Vec F S1024x1 .f32 := k0_pay1 (k0_pay13 x2 x3 xm xm xl)
def stepC (x4 : Vec F S1024x1 .i32) (x5 : Vec F S1x1024 .i32) (xc : Vec F S1024x1 .f32) : Vec F S1024x1 .f32 := k0_pay2 (k0_pay11 x4 x5) xc
def stepS (x2 x3 : Vec F S1024x768 .bf16) (x4 : Vec F S1024x1 .i32) (x5 : Vec F S1x1024 .i32) (xs : Vec F S1024x1 .f32) : Vec F S1024x1 .f32 :=
  k0_pay3 (k0_pay10 x2 x3) (k0_pay11 x4 x5) xs

/-- One column block folded into the statistics. -/
def step (x2 x3 : Vec F S1024x768 .bf16) (x4 : Vec F S1024x1 .i32) (x5 : Vec F S1x1024 .i32) (s : St F) : St F :=
  (stepM x2 x3 s.1, stepL x2 x3 s.1 s.2.1, stepC x4 x5 s.2.2.1, stepS x2 x3 x4 x5 s.2.2.2)

def reset : St F := (k0_pay6, k0_pay7, k0_pay8, k0_pay9)

def lossOf (s : St F) : Vec F S1024x1 .f32 := k0_pay5 s.1 s.2.1 s.2.2.1 s.2.2.2

end Cert.Kernel.Pt

end
-- ==== Proof.K.Runs0.lean ====
import proofs.«145934_j43250320671200_1_alg».proof.Proof.K.Step

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Pt

theorem hcondA : ∀ t : Fin cfg0.N, condA (grid0.coords t) ↔ t.val % 4 = 0 :=
  (by decide +kernel : ∀ t : Fin grid0.N, condA (grid0.coords t) ↔ t.val % 4 = 0)
theorem hcondC : ∀ t : Fin cfg0.N, condC (grid0.coords t) ↔ t.val % 4 = 3 :=
  (by decide +kernel : ∀ t : Fin grid0.N, condC (grid0.coords t) ↔ t.val % 4 = 3)

theorem idleAt4 : ∀ t : Fin cfg0.N, ¬condC (grid0.coords t) → cfg0.idle 4 (grid0.coords t) = true := by decide +kernel
theorem noFlush4 : ∀ t : Fin cfg0.N, ¬condC (grid0.coords t) → (cfg0.win 4).flush t = false := by decide +kernel
theorem liveAt4 : ∀ t : Fin cfg0.N, condC (grid0.coords t) → cfg0.idle 4 (grid0.coords t) = false := by decide +kernel

abbrev ms0 (t : Fin cfg0.N) : Memref sig .tc .vmem S1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev scM : Memref sig .tc .vmem S1024x1 .f32 := Memref.whole cc0_scratch0
abbrev scL : Memref sig .tc .vmem S1024x1 .f32 := Memref.whole cc0_scratch1
abbrev scC : Memref sig .tc .vmem S1024x1 .f32 := Memref.whole cc0_scratch2
abbrev scS : Memref sig .tc .vmem S1024x1 .f32 := Memref.whole cc0_scratch3

/-- Both launches run the same kernel body. -/
theorem body_eq (t : Fin cfg0.N) : bodyAt0 (F := F) t = cc0__row_stats_kernel (grid0.coords t) (ms0 t) (hs0 t) (ms1 t) (hs1 t) (ms2 t) (hs2 t)
    (ms3 t) (hs3 t) (ms4 t) (hs4 t) scM (Memref.isWhole_whole _) scL (Memref.isWhole_whole _) scC (Memref.isWhole_whole _) scS (Memref.isWhole_whole _) := rfl

end Cert.Kernel.R0

end
-- ==== Proof.K.Run.lean ====
import proofs.«145934_j43250320671200_1_alg».proof.Proof.K.Step

noncomputable section

namespace Cert.Kernel.Pt

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1024x768 .bf16) (harg2 : arg2.IsWhole) (arg3 : Memref sig .tc .vmem S1024x768 .bf16) (harg3 : arg3.IsWhole)
  (arg4 : Memref sig .tc .vmem S1024x1 .i32) (harg4 : arg4.IsWhole) (arg5 : Memref sig .tc .vmem S1x1024 .i32) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (x2 x3 : Vec F S1024x768 .bf16) (x4 : Vec F S1024x1 .i32) (x5 : Vec F S1x1024 .i32) (x6 : Vec F S1024x1 .f32) (s : St F)

/-- The body at a point on whole buffers, as a triple: from the four input blocks at `x2 … x5`, the output's buffer at `x6` and
    the statistics at `s`, it runs to the same inputs, the output's buffer at `y6` and the statistics at `s'`. -/
def Triple (y6 : Vec F S1024x1 .f32) (s' : St F) : Prop :=
  ∀ (E : Set ℕ) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare s.1 ∗ owns (c : Thread nD τ) arg8 fullShare s.2.1 ∗ owns (c : Thread nD τ) arg9 fullShare s.2.2.1 ∗ owns (c : Thread nD τ) arg10 fullShare s.2.2.2
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare y6
            ∗ owns (c : Thread nD τ) arg7 fullShare s'.1 ∗ owns (c : Thread nD τ) arg8 fullShare s'.2.1 ∗ owns (c : Thread nD τ) arg9 fullShare s'.2.2.1 ∗ owns (c : Thread nD τ) arg10 fullShare s'.2.2.2) -∗ K ⟨⟩))
      ⊢ wp frame (wpE (defs₀ (F := F)) Variants.none c none) E (cc0__row_stats_kernel i arg2 harg2 arg3 harg3 arg4 harg4 arg5 harg5 arg6 harg6 arg7 harg7 arg8 harg8 arg9 harg9 arg10 harg10) K

theorem hz2 : (![0, 0] : Fin 2 → Nat) = fun _ => 0 := by funext a; fin_cases a <;> rfl

set_option maxHeartbeats 4000000 in
/-- The statistics restart on a first column and the loss is stored on a last one; in each of the three cases every store
    covers its whole buffer, so each buffer reads back as its last store's value. -/
theorem triple (h : ¬(condA i ∧ condC i)) :
    Triple c i arg2 harg2 arg3 harg3 arg4 harg4 arg5 harg5 arg6 harg6 arg7 harg7 arg8 harg8 arg9 harg9 arg10 harg10 x2 x3 x4 x5 x6 s (if condC i then lossOf (step x2 x3 x4 x5 (if condA i then reset else s)) else x6)
      (step x2 x3 x4 x5 (if condA i then reset else s)) := by
  unfold Triple; intro E K
  simp only [cc0__row_stats_kernel_eq_skeleton]; unfold cc0__row_stats_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  by_cases hA : condA i <;> by_cases hC : condC i
  · exact absurd ⟨hA, hC⟩ h
  all_goals
    first | rw [if_pos hA] | rw [if_neg hA]
    first | rw [if_pos hC] | rw [if_neg hC]
    sl_exec (disch := first | exact hA | exact hC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; iexists _; isplitr; swap; · iexact H6
    rotate_left
    isplitl [H7]; iexists _; isplitr; swap; · iexact H7
    rotate_left
    isplitl [H8]; iexists _; isplitr; swap; · iexact H8
    rotate_left
    isplitl [H9]; iexists _; isplitr; swap; · iexact H9
    rotate_left
    iexists _; isplitr; swap; · iexact H10
    all_goals
      ipureintro
      first
      | rw [View.read_writes_eq_canon _ _ _ (View.cover_of_tiledL _ S1024x1.size (by sl_kernel_rfl))]
        sl_unfold_words
        rw [View.canon_cons_unit_zero (S := S1024x1) hz2]
        simp only [View.readAt_eq_ld, harg2.read_unread, harg3.read_unread, harg4.read_unread, harg5.read_unread, harg7.read_unread, harg8.read_unread, harg9.read_unread, harg10.read_unread, View.ld_unit_zero (S := S1024x768) hz2, View.ld_unit_zero (S := S1024x1) hz2, View.ld_unit_zero (S := S1x1024) hz2, View.readCov_unit_zero (S := S1024x1) _ hz2]
        rfl
      | exact harg6.read_unread _

end Cert.Kernel.Pt

end
-- ==== Proof.K.Body0.lean ====
import proofs.«145934_j43250320671200_1_alg».proof.Proof.K.Runs0
import proofs.«145934_j43250320671200_1_alg».proof.Proof.K.Run

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Pt

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ownScr : Finset (Ref sig .tc) := {cc0_scratch0, cc0_scratch1, cc0_scratch2, cc0_scratch3}

def scopedOthers (c : Dev nD) : sProp 𝕄 :=
  bigSep (((Finset.univ.filter fun b : Ref sig .tc => b.isScoped) \ Finset.univ.image (Pipeline.stageRef spec0)) \ ownScr)
    fun b => iprop(∃ f : Buf (Elt F) ((c : Thread nD τ).loc b), ((c : Thread nD τ).loc b) ↦{fullShare} f)

theorem PhiA_eq (c : Dev nD) :
    (Pipeline.ΦA spec0 c : sProp 𝕄)
      = iprop((((∃ d, owns (c : Thread nD τ) scM fullShare d) ∗ (∃ d, owns (c : Thread nD τ) scL fullShare d)
          ∗ (∃ d, owns (c : Thread nD τ) scC fullShare d) ∗ (∃ d, owns (c : Thread nD τ) scS fullShare d)) ∗ scopedOthers (F := F) c)
          ∗ (∃ r, prngReg c r)) := by
  unfold Pipeline.ΦA Pipeline.scopedRest scopedOthers
  rw [bigSep_sdiff_split (t := ownScr) (by decide)]
  rw [show ownScr = insert cc0_scratch0 (insert cc0_scratch1 (insert cc0_scratch2 {cc0_scratch3})) from rfl,
    bigSep_insert (by decide), bigSep_insert (by decide), bigSep_insert (by decide), bigSep_singleton]
  simp only [scM, scL, scC, scS, owns_whole]
  try rfl

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running statistics after point `n`: the point's blocks folded into what the point before left, or into the reset values on a first column. -/
def accAt (c : Dev nD) : (n : ℕ) → n < cfg0.N → St F
  | 0, hn => step (iblk V c 0 ⟨0, hn⟩) (iblk V c 1 ⟨0, hn⟩) (iblk V c 2 ⟨0, hn⟩) (iblk V c 3 ⟨0, hn⟩) reset
  | n + 1, hn => step (iblk V c 0 ⟨n + 1, hn⟩) (iblk V c 1 ⟨n + 1, hn⟩) (iblk V c 2 ⟨n + 1, hn⟩) (iblk V c 3 ⟨n + 1, hn⟩)
      (if (n + 1) % 4 = 0 then reset else accAt c n (Nat.lt_of_succ_lt hn))

theorem accAt_first (c : Dev nD) (t : Fin cfg0.N) (h : t.val % 4 = 0) :
    accAt V c t.val t.isLt = step (iblk V c 0 t) (iblk V c 1 t) (iblk V c 2 t) (iblk V c 3 t) reset := by
  obtain ⟨n, hn⟩ := t
  cases n with
  | zero => rfl
  | succ n =>
    have h' : (n + 1) % 4 = 0 := h
    show step _ _ _ _ (if (n + 1) % 4 = 0 then reset else accAt V c n _) = _
    rw [if_pos h']

theorem accAt_next (c : Dev nD) (t : Fin cfg0.N) (h : ¬ t.val % 4 = 0) :
    accAt V c t.val t.isLt = step (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h
  | succ n =>
    have h' : ¬ (n + 1) % 4 = 0 := h
    show step _ _ _ _ (if (n + 1) % 4 = 0 then reset else accAt V c n _) = _
    rw [if_neg h']
    rfl

def outAt (c : Dev nD) (n : ℕ) (hn : n < cfg0.N) : Vec F S1024x1 .f32 := lossOf (accAt V c n hn)

/-- The invariant before point `n`: after a point the four scratch buffers hold that point's statistics. -/
def PhiS (c : Dev nD) : (n : ℕ) → n ≤ cfg0.N → sProp 𝕄
  | 0, _ => Pipeline.ΦA spec0 c
  | n + 1, hn => iprop(((owns (c : Thread nD τ) scM fullShare (accAt V c n hn).1 ∗ owns (c : Thread nD τ) scL fullShare (accAt V c n hn).2.1
      ∗ owns (c : Thread nD τ) scC fullShare (accAt V c n hn).2.2.1 ∗ owns (c : Thread nD τ) scS fullShare (accAt V c n hn).2.2.2)
      ∗ scopedOthers (F := F) c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = outAt V c t.val t.isLt := by dsimp only [dat0]

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(((owns (c : Thread nD τ) scM fullShare (accAt V c n hn).1 ∗ owns (c : Thread nD τ) scL fullShare (accAt V c n hn).2.1
      ∗ owns (c : Thread nD τ) scC fullShare (accAt V c n hn).2.2.1 ∗ owns (c : Thread nD τ) scS fullShare (accAt V c n hn).2.2.2)
      ∗ scopedOthers (F := F) c) ∗ (∃ r, prngReg c r)) := rfl

theorem PhiS_pos (c : Dev nD) (n : ℕ) (h : n ≤ cfg0.N) (hz : n ≠ 0) :
    PhiS V c n h = iprop(((owns (c : Thread nD τ) scM fullShare (accAt V c (n - 1) (by omega)).1 ∗ owns (c : Thread nD τ) scL fullShare (accAt V c (n - 1) (by omega)).2.1
      ∗ owns (c : Thread nD τ) scC fullShare (accAt V c (n - 1) (by omega)).2.2.1 ∗ owns (c : Thread nD τ) scS fullShare (accAt V c (n - 1) (by omega)).2.2.2)
      ∗ scopedOthers (F := F) c) ∗ (∃ r, prngReg c r)) := by
  cases n with
  | zero => exact absurd rfl hz
  | succ n => rfl

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]

theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq0]; try rfl) t d).trans
    (by unfold Dat.fetched Dat.blockOf iblk; rw [A_eq0]; try rfl)
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A_eq0]; try rfl) t d).trans
    (by unfold Dat.fetched Dat.blockOf iblk; rw [A_eq0]; try rfl)
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A_eq0]; try rfl) t d).trans
    (by unfold Dat.fetched Dat.blockOf iblk; rw [A_eq0]; try rfl)
theorem before0_3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [A_eq0]; try rfl) t d).trans
    (by unfold Dat.fetched Dat.blockOf iblk; rw [A_eq0]; try rfl)

/-- The invariant before a point hands out the scratch buffers at some statistics `s`: the point's own are the step from `s`,
    or from the reset values on a first column (before the first point `s` is whatever the buffers held). -/
theorem PhiS_open (c : Dev nD) (t : Fin cfg0.N) :
    PhiS V c t.val (Nat.le_of_lt t.isLt) ⊢ iprop(∃ s : St F,
      ⌜accAt V c t.val t.isLt = step (iblk V c 0 t) (iblk V c 1 t) (iblk V c 2 t) (iblk V c 3 t) (if condA (grid0.coords t) then reset else s)⌝
      ∗ ((owns (c : Thread nD τ) scM fullShare s.1 ∗ owns (c : Thread nD τ) scL fullShare s.2.1 ∗ owns (c : Thread nD τ) scC fullShare s.2.2.1 ∗ owns (c : Thread nD τ) scS fullShare s.2.2.2)
        ∗ scopedOthers (F := F) c) ∗ (∃ r, prngReg c r)) := by
  by_cases hz : t.val = 0
  · rw [PhiS_zero V c _ _ hz, PhiA_eq]
    iintro ⟨⟨⟨⟨%m, HM⟩, ⟨%l, HL⟩, ⟨%k, HC⟩, ⟨%u, HS⟩⟩, Hoth⟩, Hg⟩
    iexists (m, l, k, u)
    isplitr
    · ipureintro; rw [accAt_first V c t (by omega), if_pos ((hcondA t).mpr (by omega))]
    isplitl [HM HL HC HS Hoth]
    · isplitl [HM HL HC HS]
      · isplitl [HM]; · iexact HM
        isplitl [HL]; · iexact HL
        isplitl [HC]; · iexact HC
        iexact HS
      iexact Hoth
    iexact Hg
  · rw [PhiS_pos V c _ _ hz]
    iintro H
    iexists accAt V c (t.val - 1) (by omega)
    isplitr
    · ipureintro
      by_cases h0 : t.val % 4 = 0
      · rw [accAt_first V c t h0, if_pos ((hcondA t).mpr h0)]
      · rw [accAt_next V c t h0, if_neg fun h => h0 ((hcondA t).mp h)]
    iexact H

/-- After a point the output block holds the loss of the point's statistics on a last column, and what it held otherwise. -/
theorem leaves4 (c : Dev nD) (t : Fin cfg0.N) (s' : St F) (hs' : accAt V c t.val t.isLt = s') (d) :
    owns (c : Thread nD τ) (ms4 t) fullShare (if condC (grid0.coords t) then lossOf s' else (dat0 V c).before 4 t d) ⊢ (dat0 V c).leavesExact 4 t := by
  subst hs'
  by_cases hC : condC (grid0.coords t)
  · rw [if_pos hC, show (dat0 V c).leavesExact 4 t = owns (c : Thread nD τ) (ms4 t) fullShare ((dat0 V c).after 4 t) from by
      unfold Dat.leavesExact; rw [liveAt4 t hC], after0_4]
    exact .rfl
  · rw [if_neg hC, Dat.leavesExact_idle (dat0 V c) 4 t (idleAt4 t hC) (noFlush4 t hC)]
    iintro H; iexists _; iexact H

/-- The body at any point: the invariant hands the triple its statistics and takes back the point's. -/
theorem sound_body (c : Dev nD) (t : Fin cfg0.N) :
    iprop(PhiS V c t.val (Nat.le_of_lt t.isLt) ∗ (dat0 V c).owesAt () t.castSucc
      ∗ (∃ d, owns (c : Thread nD τ) (ms0 t) fullShare ((dat0 V c).before 0 t d)) ∗ (∃ d, owns (c : Thread nD τ) (ms1 t) fullShare ((dat0 V c).before 1 t d))
      ∗ (∃ d, owns (c : Thread nD τ) (ms2 t) fullShare ((dat0 V c).before 2 t d)) ∗ (∃ d, owns (c : Thread nD τ) (ms3 t) fullShare ((dat0 V c).before 3 t d))
      ∗ (∃ d, owns (c : Thread nD τ) (ms4 t) fullShare ((dat0 V c).before 4 t d)))
    ⊢ wp frame (wpE (defs₀ (F := F)) Variants.none c none) Set.univ (bodyAt0 t) (fun _ =>
      iprop(PhiS V c (t.val + 1) t.isLt ∗ (dat0 V c).owesAt () t.castSucc
        ∗ owns (c : Thread nD τ) (ms0 t) fullShare (iblk V c 0 t) ∗ owns (c : Thread nD τ) (ms1 t) fullShare (iblk V c 1 t)
        ∗ owns (c : Thread nD τ) (ms2 t) fullShare (iblk V c 2 t) ∗ owns (c : Thread nD τ) (ms3 t) fullShare (iblk V c 3 t) ∗ (dat0 V c).leavesExact 4 t)) := by
  rw [body_eq]
  rw [PhiS_succ]
  simp only [before0_0, before0_1, before0_2, before0_3]
  have hAC : ¬(condA (grid0.coords t) ∧ condC (grid0.coords t)) := fun h => by
    have := (hcondA t).mp h.1; have := (hcondC t).mp h.2; omega
  iintro ⟨HΦ, Ho, ⟨%d0, H0⟩, ⟨%d1, H1⟩, ⟨%d2, H2⟩, ⟨%d3, H3⟩, ⟨%d4, H4⟩⟩
  ihave HΦ' := (PhiS_open V c t) $$ HΦ
  icases HΦ' with ⟨%s, %hs, ⟨⟨HM, HL, HC, HS⟩, Hoth⟩, Hg⟩
  rw [hs]
  iapply (triple c (grid0.coords t) _ _ _ _ _ _ _ _ _ _ _ _ _ _ _ _ _ _ (iblk V c 0 t) (iblk V c 1 t) (iblk V c 2 t) (iblk V c 3 t)
    ((dat0 V c).before 4 t d4) s hAC Set.univ _)
  iframe H0 H1 H2 H3 H4 HM HL HC HS
  iintro ⟨H0, H1, H2, H3, H4, HM, HL, HC, HS⟩
  iframe HM HL HC HS Hoth Hg Ho H0 H1 H2 H3
  iapply (leaves4 V c t _ hs d4)
  iexact H4

theorem body_obligation0 (c : Dev nD) : BodyObligation (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [show (dat0 V c).Φ 0 = PhiS V c 0 (Nat.zero_le _) from rfl, PhiS_zero V c 0 _ rfl]

theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA_eq]
  iintro ⟨⟨⟨HM, HL, HC, HS⟩, Ho⟩, Hg⟩
  isplitl [HM HL HC HS Ho]
  · isplitl [HM HL HC HS]
    · isplitl [HM]; · iexists _; iexact HM
      isplitl [HL]; · iexists _; iexact HL
      isplitl [HC]; · iexists _; iexact HC
      iexists _; iexact HS
    iexact Ho
  iexact Hg

end Cert.Kernel.R0

end
-- ==== Proof.K.Runs1.lean ====
import proofs.«145934_j43250320671200_1_alg».proof.Proof.K.Step

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Pt

theorem hcondA : ∀ t : Fin cfg1.N, condA (grid1.coords t) ↔ t.val % 4 = 0 :=
  (by decide +kernel : ∀ t : Fin grid1.N, condA (grid1.coords t) ↔ t.val % 4 = 0)
theorem hcondC : ∀ t : Fin cfg1.N, condC (grid1.coords t) ↔ t.val % 4 = 3 :=
  (by decide +kernel : ∀ t : Fin grid1.N, condC (grid1.coords t) ↔ t.val % 4 = 3)

theorem idleAt4 : ∀ t : Fin cfg1.N, ¬condC (grid1.coords t) → cfg1.idle 4 (grid1.coords t) = true := by decide +kernel
theorem noFlush4 : ∀ t : Fin cfg1.N, ¬condC (grid1.coords t) → (cfg1.win 4).flush t = false := by decide +kernel
theorem liveAt4 : ∀ t : Fin cfg1.N, condC (grid1.coords t) → cfg1.idle 4 (grid1.coords t) = false := by decide +kernel

abbrev ms0 (t : Fin cfg1.N) : Memref sig .tc .vmem S1024x768 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x768 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)
abbrev scM : Memref sig .tc .vmem S1024x1 .f32 := Memref.whole cc1_scratch0
abbrev scL : Memref sig .tc .vmem S1024x1 .f32 := Memref.whole cc1_scratch1
abbrev scC : Memref sig .tc .vmem S1024x1 .f32 := Memref.whole cc1_scratch2
abbrev scS : Memref sig .tc .vmem S1024x1 .f32 := Memref.whole cc1_scratch3

/-- Both launches run the same kernel body. -/
theorem body_eq (t : Fin cfg1.N) : bodyAt1 (F := F) t = cc0__row_stats_kernel (grid1.coords t) (ms0 t) (hs0 t) (ms1 t) (hs1 t) (ms2 t) (hs2 t)
    (ms3 t) (hs3 t) (ms4 t) (hs4 t) scM (Memref.isWhole_whole _) scL (Memref.isWhole_whole _) scC (Memref.isWhole_whole _) scS (Memref.isWhole_whole _) := rfl

end Cert.Kernel.R1

end
-- ==== Proof.K.Body1.lean ====
import proofs.«145934_j43250320671200_1_alg».proof.Proof.K.Runs1
import proofs.«145934_j43250320671200_1_alg».proof.Proof.K.Run

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Pt

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ownScr : Finset (Ref sig .tc) := {cc1_scratch0, cc1_scratch1, cc1_scratch2, cc1_scratch3}

def scopedOthers (c : Dev nD) : sProp 𝕄 :=
  bigSep (((Finset.univ.filter fun b : Ref sig .tc => b.isScoped) \ Finset.univ.image (Pipeline.stageRef spec1)) \ ownScr)
    fun b => iprop(∃ f : Buf (Elt F) ((c : Thread nD τ).loc b), ((c : Thread nD τ).loc b) ↦{fullShare} f)

theorem PhiA_eq (c : Dev nD) :
    (Pipeline.ΦA spec1 c : sProp 𝕄)
      = iprop((((∃ d, owns (c : Thread nD τ) scM fullShare d) ∗ (∃ d, owns (c : Thread nD τ) scL fullShare d)
          ∗ (∃ d, owns (c : Thread nD τ) scC fullShare d) ∗ (∃ d, owns (c : Thread nD τ) scS fullShare d)) ∗ scopedOthers (F := F) c)
          ∗ (∃ r, prngReg c r)) := by
  unfold Pipeline.ΦA Pipeline.scopedRest scopedOthers
  rw [bigSep_sdiff_split (t := ownScr) (by decide)]
  rw [show ownScr = insert cc1_scratch0 (insert cc1_scratch1 (insert cc1_scratch2 {cc1_scratch3})) from rfl,
    bigSep_insert (by decide), bigSep_insert (by decide), bigSep_insert (by decide), bigSep_singleton]
  simp only [scM, scL, scC, scS, owns_whole]
  try rfl

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running statistics after point `n`: the point's blocks folded into what the point before left, or into the reset values on a first column. -/
def accAt (c : Dev nD) : (n : ℕ) → n < cfg1.N → St F
  | 0, hn => step (iblk V c 0 ⟨0, hn⟩) (iblk V c 1 ⟨0, hn⟩) (iblk V c 2 ⟨0, hn⟩) (iblk V c 3 ⟨0, hn⟩) reset
  | n + 1, hn => step (iblk V c 0 ⟨n + 1, hn⟩) (iblk V c 1 ⟨n + 1, hn⟩) (iblk V c 2 ⟨n + 1, hn⟩) (iblk V c 3 ⟨n + 1, hn⟩)
      (if (n + 1) % 4 = 0 then reset else accAt c n (Nat.lt_of_succ_lt hn))

theorem accAt_first (c : Dev nD) (t : Fin cfg1.N) (h : t.val % 4 = 0) :
    accAt V c t.val t.isLt = step (iblk V c 0 t) (iblk V c 1 t) (iblk V c 2 t) (iblk V c 3 t) reset := by
  obtain ⟨n, hn⟩ := t
  cases n with
  | zero => rfl
  | succ n =>
    have h' : (n + 1) % 4 = 0 := h
    show step _ _ _ _ (if (n + 1) % 4 = 0 then reset else accAt V c n _) = _
    rw [if_pos h']

theorem accAt_next (c : Dev nD) (t : Fin cfg1.N) (h : ¬ t.val % 4 = 0) :
    accAt V c t.val t.isLt = step (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h
  | succ n =>
    have h' : ¬ (n + 1) % 4 = 0 := h
    show step _ _ _ _ (if (n + 1) % 4 = 0 then reset else accAt V c n _) = _
    rw [if_neg h']
    rfl

def outAt (c : Dev nD) (n : ℕ) (hn : n < cfg1.N) : Vec F S1024x1 .f32 := lossOf (accAt V c n hn)

/-- The invariant before point `n`: after a point the four scratch buffers hold that point's statistics. -/
def PhiS (c : Dev nD) : (n : ℕ) → n ≤ cfg1.N → sProp 𝕄
  | 0, _ => Pipeline.ΦA spec1 c
  | n + 1, hn => iprop(((owns (c : Thread nD τ) scM fullShare (accAt V c n hn).1 ∗ owns (c : Thread nD τ) scL fullShare (accAt V c n hn).2.1
      ∗ owns (c : Thread nD τ) scC fullShare (accAt V c n hn).2.2.1 ∗ owns (c : Thread nD τ) scS fullShare (accAt V c n hn).2.2.2)
      ∗ scopedOthers (F := F) c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = outAt V c t.val t.isLt := by dsimp only [dat1]

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) scM fullShare (accAt V c n hn).1 ∗ owns (c : Thread nD τ) scL fullShare (accAt V c n hn).2.1
      ∗ owns (c : Thread nD τ) scC fullShare (accAt V c n hn).2.2.1 ∗ owns (c : Thread nD τ) scS fullShare (accAt V c n hn).2.2.2)
      ∗ scopedOthers (F := F) c) ∗ (∃ r, prngReg c r)) := rfl

theorem PhiS_pos (c : Dev nD) (n : ℕ) (h : n ≤ cfg1.N) (hz : n ≠ 0) :
    PhiS V c n h = iprop(((owns (c : Thread nD τ) scM fullShare (accAt V c (n - 1) (by omega)).1 ∗ owns (c : Thread nD τ) scL fullShare (accAt V c (n - 1) (by omega)).2.1
      ∗ owns (c : Thread nD τ) scC fullShare (accAt V c (n - 1) (by omega)).2.2.1 ∗ owns (c : Thread nD τ) scS fullShare (accAt V c (n - 1) (by omega)).2.2.2)
      ∗ scopedOthers (F := F) c) ∗ (∃ r, prngReg c r)) := by
  cases n with
  | zero => exact absurd rfl hz
  | succ n => rfl

theorem after0_0 (c : Dev nD) (t : Fin cfg1.N) : (dat1 V c).after 0 t = iblk V c 0 t := by dsimp only [dat1]
theorem after0_1 (c : Dev nD) (t : Fin cfg1.N) : (dat1 V c).after 1 t = iblk V c 1 t := by dsimp only [dat1]
theorem after0_2 (c : Dev nD) (t : Fin cfg1.N) : (dat1 V c).after 2 t = iblk V c 2 t := by dsimp only [dat1]
theorem after0_3 (c : Dev nD) (t : Fin cfg1.N) : (dat1 V c).after 3 t = iblk V c 3 t := by dsimp only [dat1]

theorem before0_0 (c : Dev nD) (t : Fin cfg1.N) (d) : (dat1 V c).before 0 t d = iblk V c 0 t :=
  ((dat1 V c).before_in_eq_fetched 0 rfl (fun _ => rfl) (fun _ _ _ => rfl) (fun t => by rw [after0_0]; unfold Dat.blockOf iblk; rw [A_eq1]; try rfl) t d).trans
    (by unfold Dat.fetched Dat.blockOf iblk; rw [A_eq1]; try rfl)
theorem before0_1 (c : Dev nD) (t : Fin cfg1.N) (d) : (dat1 V c).before 1 t d = iblk V c 1 t :=
  ((dat1 V c).before_in_eq_fetched 1 rfl (fun _ => rfl) (fun _ _ _ => rfl) (fun t => by rw [after0_1]; unfold Dat.blockOf iblk; rw [A_eq1]; try rfl) t d).trans
    (by unfold Dat.fetched Dat.blockOf iblk; rw [A_eq1]; try rfl)
theorem before0_2 (c : Dev nD) (t : Fin cfg1.N) (d) : (dat1 V c).before 2 t d = iblk V c 2 t :=
  ((dat1 V c).before_in_eq_fetched 2 rfl (fun _ => rfl) (fun _ _ _ => rfl) (fun t => by rw [after0_2]; unfold Dat.blockOf iblk; rw [A_eq1]; try rfl) t d).trans
    (by unfold Dat.fetched Dat.blockOf iblk; rw [A_eq1]; try rfl)
theorem before0_3 (c : Dev nD) (t : Fin cfg1.N) (d) : (dat1 V c).before 3 t d = iblk V c 3 t :=
  ((dat1 V c).before_in_eq_fetched 3 rfl (fun _ => rfl) (fun _ _ _ => rfl) (fun t => by rw [after0_3]; unfold Dat.blockOf iblk; rw [A_eq1]; try rfl) t d).trans
    (by unfold Dat.fetched Dat.blockOf iblk; rw [A_eq1]; try rfl)

/-- The invariant before a point hands out the scratch buffers at some statistics `s`: the point's own are the step from `s`,
    or from the reset values on a first column (before the first point `s` is whatever the buffers held). -/
theorem PhiS_open (c : Dev nD) (t : Fin cfg1.N) :
    PhiS V c t.val (Nat.le_of_lt t.isLt) ⊢ iprop(∃ s : St F,
      ⌜accAt V c t.val t.isLt = step (iblk V c 0 t) (iblk V c 1 t) (iblk V c 2 t) (iblk V c 3 t) (if condA (grid1.coords t) then reset else s)⌝
      ∗ ((owns (c : Thread nD τ) scM fullShare s.1 ∗ owns (c : Thread nD τ) scL fullShare s.2.1 ∗ owns (c : Thread nD τ) scC fullShare s.2.2.1 ∗ owns (c : Thread nD τ) scS fullShare s.2.2.2)
        ∗ scopedOthers (F := F) c) ∗ (∃ r, prngReg c r)) := by
  by_cases hz : t.val = 0
  · rw [PhiS_zero V c _ _ hz, PhiA_eq]
    iintro ⟨⟨⟨⟨%m, HM⟩, ⟨%l, HL⟩, ⟨%k, HC⟩, ⟨%u, HS⟩⟩, Hoth⟩, Hg⟩
    iexists (m, l, k, u)
    isplitr
    · ipureintro; rw [accAt_first V c t (by omega), if_pos ((hcondA t).mpr (by omega))]
    isplitl [HM HL HC HS Hoth]
    · isplitl [HM HL HC HS]
      · isplitl [HM]; · iexact HM
        isplitl [HL]; · iexact HL
        isplitl [HC]; · iexact HC
        iexact HS
      iexact Hoth
    iexact Hg
  · rw [PhiS_pos V c _ _ hz]
    iintro H
    iexists accAt V c (t.val - 1) (by omega)
    isplitr
    · ipureintro
      by_cases h0 : t.val % 4 = 0
      · rw [accAt_first V c t h0, if_pos ((hcondA t).mpr h0)]
      · rw [accAt_next V c t h0, if_neg fun h => h0 ((hcondA t).mp h)]
    iexact H

/-- After a point the output block holds the loss of the point's statistics on a last column, and what it held otherwise. -/
theorem leaves4 (c : Dev nD) (t : Fin cfg1.N) (s' : St F) (hs' : accAt V c t.val t.isLt = s') (d) :
    owns (c : Thread nD τ) (ms4 t) fullShare (if condC (grid1.coords t) then lossOf s' else (dat1 V c).before 4 t d) ⊢ (dat1 V c).leavesExact 4 t := by
  subst hs'
  by_cases hC : condC (grid1.coords t)
  · rw [if_pos hC, show (dat1 V c).leavesExact 4 t = owns (c : Thread nD τ) (ms4 t) fullShare ((dat1 V c).after 4 t) from by
      unfold Dat.leavesExact; rw [liveAt4 t hC], after1_4]
    exact .rfl
  · rw [if_neg hC, Dat.leavesExact_idle (dat1 V c) 4 t (idleAt4 t hC) (noFlush4 t hC)]
    iintro H; iexists _; iexact H

/-- The body at any point: the invariant hands the triple its statistics and takes back the point's. -/
theorem sound_body (c : Dev nD) (t : Fin cfg1.N) :
    iprop(PhiS V c t.val (Nat.le_of_lt t.isLt) ∗ (dat1 V c).owesAt () t.castSucc
      ∗ (∃ d, owns (c : Thread nD τ) (ms0 t) fullShare ((dat1 V c).before 0 t d)) ∗ (∃ d, owns (c : Thread nD τ) (ms1 t) fullShare ((dat1 V c).before 1 t d))
      ∗ (∃ d, owns (c : Thread nD τ) (ms2 t) fullShare ((dat1 V c).before 2 t d)) ∗ (∃ d, owns (c : Thread nD τ) (ms3 t) fullShare ((dat1 V c).before 3 t d))
      ∗ (∃ d, owns (c : Thread nD τ) (ms4 t) fullShare ((dat1 V c).before 4 t d)))
    ⊢ wp frame (wpE (defs₀ (F := F)) Variants.none c none) Set.univ (bodyAt1 t) (fun _ =>
      iprop(PhiS V c (t.val + 1) t.isLt ∗ (dat1 V c).owesAt () t.castSucc
        ∗ owns (c : Thread nD τ) (ms0 t) fullShare (iblk V c 0 t) ∗ owns (c : Thread nD τ) (ms1 t) fullShare (iblk V c 1 t)
        ∗ owns (c : Thread nD τ) (ms2 t) fullShare (iblk V c 2 t) ∗ owns (c : Thread nD τ) (ms3 t) fullShare (iblk V c 3 t) ∗ (dat1 V c).leavesExact 4 t)) := by
  rw [body_eq]
  rw [PhiS_succ]
  simp only [before0_0, before0_1, before0_2, before0_3]
  have hAC : ¬(condA (grid1.coords t) ∧ condC (grid1.coords t)) := fun h => by
    have := (hcondA t).mp h.1; have := (hcondC t).mp h.2; omega
  iintro ⟨HΦ, Ho, ⟨%d0, H0⟩, ⟨%d1, H1⟩, ⟨%d2, H2⟩, ⟨%d3, H3⟩, ⟨%d4, H4⟩⟩
  ihave HΦ' := (PhiS_open V c t) $$ HΦ
  icases HΦ' with ⟨%s, %hs, ⟨⟨HM, HL, HC, HS⟩, Hoth⟩, Hg⟩
  rw [hs]
  iapply (triple c (grid1.coords t) _ _ _ _ _ _ _ _ _ _ _ _ _ _ _ _ _ _ (iblk V c 0 t) (iblk V c 1 t) (iblk V c 2 t) (iblk V c 3 t)
    ((dat1 V c).before 4 t d4) s hAC Set.univ _)
  iframe H0 H1 H2 H3 H4 HM HL HC HS
  iintro ⟨H0, H1, H2, H3, H4, HM, HL, HC, HS⟩
  iframe HM HL HC HS Hoth Hg Ho H0 H1 H2 H3
  iapply (leaves4 V c t _ hs d4)
  iexact H4

theorem body_obligation1 (c : Dev nD) : BodyObligation (dat1 (F := F) V c) (defs₀ (F := F)) Variants.none () Set.univ := fun t => by
  rw [bigSep_W1, bigSep_W1]
  exact sound_body V c t

theorem hin1 (c : Dev nD) : Pipeline.ΦA spec1 c ⊢ (dat1 V c).Φ 0 := by
  rw [show (dat1 V c).Φ 0 = PhiS V c 0 (Nat.zero_le _) from rfl, PhiS_zero V c 0 _ rfl]

theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA_eq]
  iintro ⟨⟨⟨HM, HL, HC, HS⟩, Ho⟩, Hg⟩
  isplitl [HM HL HC HS Ho]
  · isplitl [HM HL HC HS]
    · isplitl [HM]; · iexists _; iexact HM
      isplitl [HL]; · iexists _; iexact HL
      isplitl [HC]; · iexists _; iexact HC
      iexists _; iexact HS
    iexact Ho
  iexact Hg

end Cert.Kernel.R1

end
-- ==== Proof.K.Region0.lean ====
import proofs.«145934_j43250320671200_1_alg».proof.Proof.Gen.Kernel.Regions
import proofs.«145934_j43250320671200_1_alg».proof.Proof.K.Body0
import proofs.«145934_j43250320671200_1_alg».proof.Proof.K.Body1
import Idealize.ShloMosaic.Lib.Pipeline.Frame
import Idealize.ShloMosaic.Lib.Pipeline.Regions
import Idealize.ShloMosaic.Lib.Pipeline.RegionsLoop

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E4 : (c : Dev nD) → (b : Ref sig .tc) → Buf (Elt F) ((c : Thread nD τ).loc b) := fun c b => V4 m c b

def o5 (c : Dev nD) : Buf (Elt F) ((c : Thread nD τ).loc main_v14) := (R0.dat0 (E4 m) c).arrAt 4 cfg0.N

abbrev W5 (c : Dev nD) : Valuation τ sig (Elt F) := Function.update (V4 m c) main_v14 (o5 m c)
abbrev E5 : (c : Dev nD) → (b : Ref sig .tc) → Buf (Elt F) ((c : Thread nD τ).loc b) := fun c b => W5 m c b

def o6 (c : Dev nD) : Buf (Elt F) ((c : Thread nD τ).loc main_v15) := (R1.dat1 (E5 m) c).arrAt 4 cfg1.N

abbrev W6 (c : Dev nD) : Valuation τ sig (Elt F) := Function.update (W5 m c) main_v15 (o6 m c)

def outs : Outs (F := F) := fun J r c => match J with
  | 5 => W5 m c (Proc.devRef .tc r)
  | 6 => W6 m c (Proc.devRef .tc r)
  | _ => V4 m c (Proc.devRef .tc r)

theorem outs_5 (c : Dev nD) : outs m 5 main_v14 c = o5 m c := by
  dsimp only [outs]; exact Function.update_self ..
theorem outs_6 (c : Dev nD) : outs m 6 main_v15 c = o6 m c := by
  dsimp only [outs]; exact Function.update_self ..
theorem V5_eq (c : Dev nD) : V5 m (outs m) c = W5 m c := by
  unfold V5; rw [outs_5]
theorem V6_eq (c : Dev nD) : V6 m (outs m) c = W6 m c := by
  unfold V6; rw [outs_6, V5_eq]

abbrev X5 : (c : Dev nD) → (b : Ref sig .tc) → Buf (Elt F) ((c : Thread nD τ).loc b) := fun c b => V5 m (outs m) c b
abbrev X6 : (c : Dev nD) → (b : Ref sig .tc) → Buf (Elt F) ((c : Thread nD τ).loc b) := fun c b => V6 m (outs m) c b

def pdats : (p : Fin 2) → (c : Dev nD) → Dat τ (Elt F) Unit ℕ (UR sig nD τ) ℕ (cfgs p) c
  | ⟨0, _⟩ => fun c => R0.dat0 (E4 m) c
  | ⟨1, _⟩ => fun c => R1.dat1 (E5 m) c

abbrev R (c : Dev nD) : sProp 𝕄 := iprop((∃ r, prngReg c r) ∗ ∃ W, owes (c : Thread nD τ) (0 : CellTallies nD τ sig Unit) W)
abbrev E : Fin 3 → Dev nD → sProp 𝕄 := fun _ c => R c
abbrev L0 : GSem nD τ sig → Finset Unit := fun _ => ∅
abbrev lv0 : GSem nD τ sig → Unit → ℕ := fun _ _ => 0

/-- At the first launch's exit an input array holds what it held and the output array what the write-backs leave. -/
theorem hF0 (c : Dev nD) : ∀ w : Fin cfg0.W, (R0.dat0 (E4 m) c).arrAt w cfg0.N = X5 m c (Pipeline.arrRef spec0 w)
  | ⟨0, _⟩ => ((R0.dat0 (E4 m) c).arrAt_in 0 rfl _).trans ((R0.A_eq0 (E4 m) c 0).trans (V5_of m (outs m) c main_v5 (by decide)).symm)
  | ⟨1, _⟩ => ((R0.dat0 (E4 m) c).arrAt_in 1 rfl _).trans ((R0.A_eq0 (E4 m) c 1).trans (V5_of m (outs m) c main_v11 (by decide)).symm)
  | ⟨2, _⟩ => ((R0.dat0 (E4 m) c).arrAt_in 2 rfl _).trans ((R0.A_eq0 (E4 m) c 2).trans (V5_of m (outs m) c main_v12 (by decide)).symm)
  | ⟨3, _⟩ => ((R0.dat0 (E4 m) c).arrAt_in 3 rfl _).trans ((R0.A_eq0 (E4 m) c 3).trans (V5_of m (outs m) c main_v13 (by decide)).symm)
  | ⟨4, _⟩ => show o5 m c = V5 m (outs m) c main_v14 from by
      rw [V5_eq]; exact (Function.update_self (Proc.devRef .tc main_v14 : DevRef τ sig) (o5 m c) (V4 m c)).symm

theorem hrest0 (c : Dev nD) : ∀ b, b ∉ Finset.univ.image (Pipeline.arrRef spec0) → X5 m c b = E4 m c b :=
  fun b hb => V5_of m (outs m) c b fun h => hb (Finset.mem_image.mpr ⟨4, Finset.mem_univ _, (List.mem_singleton.mp h).symm⟩)

set_option backward.isDefEq.respectTransparency.types false in
/-- A launch as a segment of the program: entered with every unscoped buffer at `Vin` and left with them at `Vout`, which is `Vin`
    but for what the launch's arrays end at; beside the buffers ride the generator register and an empty debt. -/
def regOf (p : Fin 2) (lf : Pipeline.LaunchFacts (nD := nD) (τ := τ) cfgs p) (Vin Vout : (c : Dev nD) → Valuation τ sig (Elt F))
    (hbody : ∀ c, Pipeline.BodyObligation (pdats m p c) (defs₀ (F := F)) Variants.none () Set.univ)
    (hshare : ∀ c w, (pdats m p c).share w = fullShare) (howed : ∀ c t, (pdats m p c).owed t = 0)
    (hrec : ∀ c t, (pdats m p c).recorded t = Set.univ)
    (hA : ∀ c w, (pdats m p c).A w = Vin c (Pipeline.arrRef (pcfgs (F := F) p).spec w))
    (hF : ∀ c w, (pdats m p c).arrAt w (cfgs p).N = Vout c (Pipeline.arrRef (pcfgs (F := F) p).spec w))
    (hrest : ∀ c (b : Ref sig .tc), b ∉ Finset.univ.image (Pipeline.arrRef (pcfgs (F := F) p).spec) → Vout c b = Vin c b)
    (hin : ∀ c, Pipeline.ΦA (pcfgs (F := F) p).spec c ⊢ (pdats m p c).Φ 0)
    (hout : ∀ c, (pdats m p c).Φ (Fin.last (cfgs p).N) ⊢ Pipeline.ΦA (pcfgs (F := F) p).spec c) :
    RegionSeg (pcfgs (F := F)) adm (pdats m) () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Vin c b)
  hentry c := by
    rw [Pipeline.ownSems0_none]
    have hsplit := Pipeline.arrays_of_unscopedBufs (p := p) (pcfgs (F := F)) adm (pdats m) lf.win lf.arr_whole c (hshare c) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c 0 ▸ trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (hshare c) (fun b => Vin c b) (fun b => Vout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- The first launch: from the contents the host prefix leaves to those contents updated at its output array. -/
def reg0 : RegionSeg (pcfgs (F := F)) adm (pdats m) () defs₀ Variants.none L0 lv0 0 :=
  regOf m 0 launch0 (V4 m) (V5 m (outs m)) (R0.body_obligation0 (E4 m)) (fun c => (pdats m 0 c).share_full fun _ => rfl) (fun _ _ => rfl) (fun _ _ => rfl)
    (R0.A_eq0 (E4 m)) (hF0 m) (hrest0 m) (R0.hin0 (E4 m)) (R0.hout0 (E4 m))

end Cert.Kernel.Launch

end
-- ==== Proof.K.Region1.lean ====
import proofs.«145934_j43250320671200_1_alg».proof.Proof.K.Region0
import Idealize.ShloMosaic.Lib.Pipeline.Frame
import Idealize.ShloMosaic.Lib.Pipeline.Regions
import Idealize.ShloMosaic.Lib.Pipeline.RegionsLoop

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem X6_of (c : Dev nD) (r : Ref sig .tc) (h : r ∉ ([main_v15] : List (Ref sig .tc))) : X6 m c r = E5 m c r :=
  (V6_of m (outs m) c r h).trans (congrFun (V5_eq m c) _)

theorem hF1 (c : Dev nD) : ∀ w : Fin cfg1.W, (R1.dat1 (E5 m) c).arrAt w cfg1.N = X6 m c (Pipeline.arrRef spec1 w)
  | ⟨0, _⟩ => ((R1.dat1 (E5 m) c).arrAt_in 0 rfl _).trans ((R1.A_eq1 (E5 m) c 0).trans (X6_of m c main_v11 (by decide)).symm)
  | ⟨1, _⟩ => ((R1.dat1 (E5 m) c).arrAt_in 1 rfl _).trans ((R1.A_eq1 (E5 m) c 1).trans (X6_of m c main_v5 (by decide)).symm)
  | ⟨2, _⟩ => ((R1.dat1 (E5 m) c).arrAt_in 2 rfl _).trans ((R1.A_eq1 (E5 m) c 2).trans (X6_of m c main_v12 (by decide)).symm)
  | ⟨3, _⟩ => ((R1.dat1 (E5 m) c).arrAt_in 3 rfl _).trans ((R1.A_eq1 (E5 m) c 3).trans (X6_of m c main_v13 (by decide)).symm)
  | ⟨4, _⟩ => show o6 m c = V6 m (outs m) c main_v15 from by
      rw [V6_eq]; exact (Function.update_self (Proc.devRef .tc main_v15 : DevRef τ sig) (o6 m c) (W5 m c)).symm

theorem hrest1 (c : Dev nD) : ∀ b, b ∉ Finset.univ.image (Pipeline.arrRef spec1) → X6 m c b = E5 m c b :=
  fun b hb => X6_of m c b fun h => hb (Finset.mem_image.mpr ⟨4, Finset.mem_univ _, (List.mem_singleton.mp h).symm⟩)

/-- The second launch: from the contents the first leaves to those updated at its own output array. -/
def reg1 : RegionSeg (pcfgs (F := F)) adm (pdats m) () defs₀ Variants.none L0 lv0 1 :=
  regOf m 1 launch1 (V5 m (outs m)) (V6 m (outs m)) (R1.body_obligation1 (E5 m)) (fun c => (pdats m 1 c).share_full fun _ => rfl) (fun _ _ => rfl) (fun _ _ => rfl)
    (fun c w => (R1.A_eq1 (E5 m) c w).trans (congrFun (V5_eq m c).symm _)) (hF1 m) (fun c b hb => (hrest1 m c b hb).trans (congrFun (V5_eq m c).symm _))
    (R1.hin1 (E5 m)) (R1.hout1 (E5 m))

end Cert.Kernel.Launch

end
-- ==== Proof.K.Frame.lean ====
import proofs.«145934_j43250320671200_1_alg».proof.Proof.K.Region1
import Idealize.ShloMosaic.Lib.Pipeline.Frame
import Idealize.ShloMosaic.Lib.Pipeline.Regions
import Idealize.ShloMosaic.Lib.Pipeline.RegionsLoop

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev u₀ : UR sig nD τ := initOf (Pipeline.cells cfgs cellOf_inj) (Pipeline.launchToks cfgs cellOf_inj)

theorem hu₀ : (ownU (u₀) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- Every fair execution of the program ends with the result buffer at what the host tail computes from what the two launches
    leave, and each argument as launched: the segments' chain, host stretches and launches alternating. -/
theorem run_value : θ_run defs (onTc (τ := τ) (main (F := F))) ⟨m, fun _ => 0, ρ⟩ (fun r => ∀ c : Dev nD,
      r.2.mem ((c.tc : Thread nD τ).loc main_v21) = V7 m (outs m) c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ Variants.none L0 lv0 m ρ main
    (segs m (outs m) Variants.none L0 lv0 E () (pdats m) (reg0 m) (reg1 m))
    (fun c Q => by
      rewrite [main_chain c, Seg.run_eq_chain,
        show (segs m (outs m) Variants.none L0 lv0 E () (pdats m) (reg0 m) (reg1 m) c).map Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (fun _ => 0) (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m (outs m) c))
    (hch := fun c => ⟨.rfl, .rfl, .rfl, .rfl, .rfl, .rfl, .rfl, sep_mono .rfl (hE2 c)⟩)
    (hinit := ?_)
    (QY := fun c s => s.mem ((c.tc : Thread nD τ).loc main_v21) = V7 m (outs m) c (Proc.devRef .tc main_v21)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  ·
    refine Pipeline.initEach L0 lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨h (Proc.devRef .tc main_v21) (Finset.mem_filter.mpr ⟨StableHlo.devRef_mem_tcRefs main_v21, by decide⟩),
        (h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c),
        (h (Proc.devRef .tc main_arg2) (Finset.mem_filter.mpr ⟨StableHlo.devRef_mem_tcRefs main_arg2, by decide⟩)).trans (V7_main_arg2 m (outs m) c)⟩
    · iexact HSI

/-- The frame is the value run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.Kernel.Launch

end
-- ==== Proof.KI.Step.lean ====
import proofs.«145934_j43250320671200_1_alg».proof.Proof.Gen.KernelIdeal.Launch
import proofs.«145934_j43250320671200_1_alg».proof.Proof.Gen.KernelIdeal.Skeleton
import proofs.«145934_j43250320671200_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Pt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first column of the grid (the statistics restart), as the body tests it. -/
abbrev condA (i : grid0.Coords) : Prop := (Scalar.cmpi .ne (Scalar.extui (Scalar.cmpi .eq (BitVec.ofNat 32 (i 1).val) 0#32)) 0#32) = 1#1
/-- The last column (the row block's loss is stored). -/
abbrev condC (i : grid0.Coords) : Prop := k0_cond2 i = 1#1

/-- A row block's running maximum, rescaled sum of exponentials, masked count and masked sum. -/
abbrev St (F : FTy → Type) [FloatOps F] : Type := Vec F S1024x1 .f32 × Vec F S1024x1 .f32 × Vec F S1024x1 .f32 × Vec F S1024x1 .f32

def stepM (x2 x3 : Vec F S1024x768 .bf16) (xm : Vec F S1024x1 .f32) : Vec F S1024x1 .f32 := k0_pay4 (k0_pay12 x2 x3 xm)
def stepL (x2 x3 : Vec F S1024x768 .bf16) (xm xl : Vec F S1024x1 .f32) : Vec F S1024x1 .f32 := k0_pay1 (k0_pay13 x2 x3 xm xm xl)
def stepC (x4 : Vec F S1024x1 .i32) (x5 : Vec F S1x1024 .i32) (xc : Vec F S1024x1 .f32) : Vec F S1024x1 .f32 := k0_pay2 (k0_pay11 x4 x5) xc
def stepS (x2 x3 : Vec F S1024x768 .bf16) (x4 : Vec F S1024x1 .i32) (x5 : Vec F S1x1024 .i32) (xs : Vec F S1024x1 .f32) : Vec F S1024x1 .f32 :=
  k0_pay3 (k0_pay10 x2 x3) (k0_pay11 x4 x5) xs

/-- One column block folded into the statistics. -/
def step (x2 x3 : Vec F S1024x768 .bf16) (x4 : Vec F S1024x1 .i32) (x5 : Vec F S1x1024 .i32) (s : St F) : St F :=
  (stepM x2 x3 s.1, stepL x2 x3 s.1 s.2.1, stepC x4 x5 s.2.2.1, stepS x2 x3 x4 x5 s.2.2.2)

def reset : St F := (k0_pay6, k0_pay7, k0_pay8, k0_pay9)

def lossOf (s : St F) : Vec F S1024x1 .f32 := k0_pay5 s.1 s.2.1 s.2.2.1 s.2.2.2

end Cert.KernelIdeal.Pt

end
-- ==== Proof.KI.Runs0.lean ====
import proofs.«145934_j43250320671200_1_alg».proof.Proof.KI.Step

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Pt

theorem hcondA : ∀ t : Fin cfg0.N, condA (grid0.coords t) ↔ t.val % 4 = 0 :=
  (by decide +kernel : ∀ t : Fin grid0.N, condA (grid0.coords t) ↔ t.val % 4 = 0)
theorem hcondC : ∀ t : Fin cfg0.N, condC (grid0.coords t) ↔ t.val % 4 = 3 :=
  (by decide +kernel : ∀ t : Fin grid0.N, condC (grid0.coords t) ↔ t.val % 4 = 3)

theorem idleAt4 : ∀ t : Fin cfg0.N, ¬condC (grid0.coords t) → cfg0.idle 4 (grid0.coords t) = true := by decide +kernel
theorem noFlush4 : ∀ t : Fin cfg0.N, ¬condC (grid0.coords t) → (cfg0.win 4).flush t = false := by decide +kernel
theorem liveAt4 : ∀ t : Fin cfg0.N, condC (grid0.coords t) → cfg0.idle 4 (grid0.coords t) = false := by decide +kernel

abbrev ms0 (t : Fin cfg0.N) : Memref sig .tc .vmem S1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev scM : Memref sig .tc .vmem S1024x1 .f32 := Memref.whole cc0_scratch0
abbrev scL : Memref sig .tc .vmem S1024x1 .f32 := Memref.whole cc0_scratch1
abbrev scC : Memref sig .tc .vmem S1024x1 .f32 := Memref.whole cc0_scratch2
abbrev scS : Memref sig .tc .vmem S1024x1 .f32 := Memref.whole cc0_scratch3

/-- Both launches run the same kernel body. -/
theorem body_eq (t : Fin cfg0.N) : bodyAt0 (F := F) t = cc0__row_stats_kernel (grid0.coords t) (ms0 t) (hs0 t) (ms1 t) (hs1 t) (ms2 t) (hs2 t)
    (ms3 t) (hs3 t) (ms4 t) (hs4 t) scM (Memref.isWhole_whole _) scL (Memref.isWhole_whole _) scC (Memref.isWhole_whole _) scS (Memref.isWhole_whole _) := rfl

end Cert.KernelIdeal.R0

end
-- ==== Proof.KI.Run.lean ====
import proofs.«145934_j43250320671200_1_alg».proof.Proof.KI.Step

noncomputable section

namespace Cert.KernelIdeal.Pt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S1024x768 .bf16) (harg2 : arg2.IsWhole) (arg3 : Memref sig .tc .vmem S1024x768 .bf16) (harg3 : arg3.IsWhole)
  (arg4 : Memref sig .tc .vmem S1024x1 .i32) (harg4 : arg4.IsWhole) (arg5 : Memref sig .tc .vmem S1x1024 .i32) (harg5 : arg5.IsWhole)
  (arg6 : Memref sig .tc .vmem S1024x1 .f32) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (x2 x3 : Vec F S1024x768 .bf16) (x4 : Vec F S1024x1 .i32) (x5 : Vec F S1x1024 .i32) (x6 : Vec F S1024x1 .f32) (s : St F)

/-- The body at a point on whole buffers, as a triple: from the four input blocks at `x2 … x5`, the output's buffer at `x6` and
    the statistics at `s`, it runs to the same inputs, the output's buffer at `y6` and the statistics at `s'`. -/
def Triple (y6 : Vec F S1024x1 .f32) (s' : St F) : Prop :=
  ∀ (E : Set ℕ) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare s.1 ∗ owns (c : Thread nD τ) arg8 fullShare s.2.1 ∗ owns (c : Thread nD τ) arg9 fullShare s.2.2.1 ∗ owns (c : Thread nD τ) arg10 fullShare s.2.2.2
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare y6
            ∗ owns (c : Thread nD τ) arg7 fullShare s'.1 ∗ owns (c : Thread nD τ) arg8 fullShare s'.2.1 ∗ owns (c : Thread nD τ) arg9 fullShare s'.2.2.1 ∗ owns (c : Thread nD τ) arg10 fullShare s'.2.2.2) -∗ K ⟨⟩))
      ⊢ wp frame (wpE (defs₀ (F := F)) Variants.none c none) E (cc0__row_stats_kernel i arg2 harg2 arg3 harg3 arg4 harg4 arg5 harg5 arg6 harg6 arg7 harg7 arg8 harg8 arg9 harg9 arg10 harg10) K

theorem hz2 : (![0, 0] : Fin 2 → Nat) = fun _ => 0 := by funext a; fin_cases a <;> rfl

set_option maxHeartbeats 4000000 in
/-- The statistics restart on a first column and the loss is stored on a last one; in each of the three cases every store
    covers its whole buffer, so each buffer reads back as its last store's value. -/
theorem triple (h : ¬(condA i ∧ condC i)) :
    Triple c i arg2 harg2 arg3 harg3 arg4 harg4 arg5 harg5 arg6 harg6 arg7 harg7 arg8 harg8 arg9 harg9 arg10 harg10 x2 x3 x4 x5 x6 s (if condC i then lossOf (step x2 x3 x4 x5 (if condA i then reset else s)) else x6)
      (step x2 x3 x4 x5 (if condA i then reset else s)) := by
  unfold Triple; intro E K
  simp only [cc0__row_stats_kernel_eq_skeleton]; unfold cc0__row_stats_kernel_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  by_cases hA : condA i <;> by_cases hC : condC i
  · exact absurd ⟨hA, hC⟩ h
  all_goals
    first | rw [if_pos hA] | rw [if_neg hA]
    first | rw [if_pos hC] | rw [if_neg hC]
    sl_exec (disch := first | exact hA | exact hC)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; iexists _; isplitr; swap; · iexact H6
    rotate_left
    isplitl [H7]; iexists _; isplitr; swap; · iexact H7
    rotate_left
    isplitl [H8]; iexists _; isplitr; swap; · iexact H8
    rotate_left
    isplitl [H9]; iexists _; isplitr; swap; · iexact H9
    rotate_left
    iexists _; isplitr; swap; · iexact H10
    all_goals
      ipureintro
      first
      | rw [View.read_writes_eq_canon _ _ _ (View.cover_of_tiledL _ S1024x1.size (by sl_kernel_rfl))]
        sl_unfold_words
        rw [View.canon_cons_unit_zero (S := S1024x1) hz2]
        simp only [View.readAt_eq_ld, harg2.read_unread, harg3.read_unread, harg4.read_unread, harg5.read_unread, harg7.read_unread, harg8.read_unread, harg9.read_unread, harg10.read_unread, View.ld_unit_zero (S := S1024x768) hz2, View.ld_unit_zero (S := S1024x1) hz2, View.ld_unit_zero (S := S1x1024) hz2, View.readCov_unit_zero (S := S1024x1) _ hz2]
        rfl
      | exact harg6.read_unread _

end Cert.KernelIdeal.Pt

end
-- ==== Proof.KI.Body0.lean ====
import proofs.«145934_j43250320671200_1_alg».proof.Proof.KI.Runs0
import proofs.«145934_j43250320671200_1_alg».proof.Proof.KI.Run

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pt

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev ownScr : Finset (Ref sig .tc) := {cc0_scratch0, cc0_scratch1, cc0_scratch2, cc0_scratch3}

def scopedOthers (c : Dev nD) : sProp 𝕄 :=
  bigSep (((Finset.univ.filter fun b : Ref sig .tc => b.isScoped) \ Finset.univ.image (Pipeline.stageRef spec0)) \ ownScr)
    fun b => iprop(∃ f : Buf (Elt F) ((c : Thread nD τ).loc b), ((c : Thread nD τ).loc b) ↦{fullShare} f)

theorem PhiA_eq (c : Dev nD) :
    (Pipeline.ΦA spec0 c : sProp 𝕄)
      = iprop((((∃ d, owns (c : Thread nD τ) scM fullShare d) ∗ (∃ d, owns (c : Thread nD τ) scL fullShare d)
          ∗ (∃ d, owns (c : Thread nD τ) scC fullShare d) ∗ (∃ d, owns (c : Thread nD τ) scS fullShare d)) ∗ scopedOthers (F := F) c)
          ∗ (∃ r, prngReg c r)) := by
  unfold Pipeline.ΦA Pipeline.scopedRest scopedOthers
  rw [bigSep_sdiff_split (t := ownScr) (by decide)]
  rw [show ownScr = insert cc0_scratch0 (insert cc0_scratch1 (insert cc0_scratch2 {cc0_scratch3})) from rfl,
    bigSep_insert (by decide), bigSep_insert (by decide), bigSep_insert (by decide), bigSep_singleton]
  simp only [scM, scL, scC, scS, owns_whole]
  try rfl

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running statistics after point `n`: the point's blocks folded into what the point before left, or into the reset values on a first column. -/
def accAt (c : Dev nD) : (n : ℕ) → n < cfg0.N → St F
  | 0, hn => step (iblk V c 0 ⟨0, hn⟩) (iblk V c 1 ⟨0, hn⟩) (iblk V c 2 ⟨0, hn⟩) (iblk V c 3 ⟨0, hn⟩) reset
  | n + 1, hn => step (iblk V c 0 ⟨n + 1, hn⟩) (iblk V c 1 ⟨n + 1, hn⟩) (iblk V c 2 ⟨n + 1, hn⟩) (iblk V c 3 ⟨n + 1, hn⟩)
      (if (n + 1) % 4 = 0 then reset else accAt c n (Nat.lt_of_succ_lt hn))

theorem accAt_first (c : Dev nD) (t : Fin cfg0.N) (h : t.val % 4 = 0) :
    accAt V c t.val t.isLt = step (iblk V c 0 t) (iblk V c 1 t) (iblk V c 2 t) (iblk V c 3 t) reset := by
  obtain ⟨n, hn⟩ := t
  cases n with
  | zero => rfl
  | succ n =>
    have h' : (n + 1) % 4 = 0 := h
    show step _ _ _ _ (if (n + 1) % 4 = 0 then reset else accAt V c n _) = _
    rw [if_pos h']

theorem accAt_next (c : Dev nD) (t : Fin cfg0.N) (h : ¬ t.val % 4 = 0) :
    accAt V c t.val t.isLt = step (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h
  | succ n =>
    have h' : ¬ (n + 1) % 4 = 0 := h
    show step _ _ _ _ (if (n + 1) % 4 = 0 then reset else accAt V c n _) = _
    rw [if_neg h']
    rfl

def outAt (c : Dev nD) (n : ℕ) (hn : n < cfg0.N) : Vec F S1024x1 .f32 := lossOf (accAt V c n hn)

/-- The invariant before point `n`: after a point the four scratch buffers hold that point's statistics. -/
def PhiS (c : Dev nD) : (n : ℕ) → n ≤ cfg0.N → sProp 𝕄
  | 0, _ => Pipeline.ΦA spec0 c
  | n + 1, hn => iprop(((owns (c : Thread nD τ) scM fullShare (accAt V c n hn).1 ∗ owns (c : Thread nD τ) scL fullShare (accAt V c n hn).2.1
      ∗ owns (c : Thread nD τ) scC fullShare (accAt V c n hn).2.2.1 ∗ owns (c : Thread nD τ) scS fullShare (accAt V c n hn).2.2.2)
      ∗ scopedOthers (F := F) c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = outAt V c t.val t.isLt := by dsimp only [dat0]

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(((owns (c : Thread nD τ) scM fullShare (accAt V c n hn).1 ∗ owns (c : Thread nD τ) scL fullShare (accAt V c n hn).2.1
      ∗ owns (c : Thread nD τ) scC fullShare (accAt V c n hn).2.2.1 ∗ owns (c : Thread nD τ) scS fullShare (accAt V c n hn).2.2.2)
      ∗ scopedOthers (F := F) c) ∗ (∃ r, prngReg c r)) := rfl

theorem PhiS_pos (c : Dev nD) (n : ℕ) (h : n ≤ cfg0.N) (hz : n ≠ 0) :
    PhiS V c n h = iprop(((owns (c : Thread nD τ) scM fullShare (accAt V c (n - 1) (by omega)).1 ∗ owns (c : Thread nD τ) scL fullShare (accAt V c (n - 1) (by omega)).2.1
      ∗ owns (c : Thread nD τ) scC fullShare (accAt V c (n - 1) (by omega)).2.2.1 ∗ owns (c : Thread nD τ) scS fullShare (accAt V c (n - 1) (by omega)).2.2.2)
      ∗ scopedOthers (F := F) c) ∗ (∃ r, prngReg c r)) := by
  cases n with
  | zero => exact absurd rfl hz
  | succ n => rfl

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]

theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq0]; try rfl) t d).trans
    (by unfold Dat.fetched Dat.blockOf iblk; rw [A_eq0]; try rfl)
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A_eq0]; try rfl) t d).trans
    (by unfold Dat.fetched Dat.blockOf iblk; rw [A_eq0]; try rfl)
theorem before0_2 (c : Dev nD) (t : Fin cfg0.N) (d) : (dat0 V c).before 2 t d = iblk V c 2 t :=
  ((dat0 V c).before_in_eq_fetched 2 rfl (fun _ => rfl) (fun _ _ _ => rfl) (fun t => by rw [after0_2]; unfold Dat.blockOf iblk; rw [A_eq0]; try rfl) t d).trans
    (by unfold Dat.fetched Dat.blockOf iblk; rw [A_eq0]; try rfl)
theorem before0_3 (c : Dev nD) (t : Fin cfg0.N) (d) : (dat0 V c).before 3 t d = iblk V c 3 t :=
  ((dat0 V c).before_in_eq_fetched 3 rfl (fun _ => rfl) (fun _ _ _ => rfl) (fun t => by rw [after0_3]; unfold Dat.blockOf iblk; rw [A_eq0]; try rfl) t d).trans
    (by unfold Dat.fetched Dat.blockOf iblk; rw [A_eq0]; try rfl)

/-- The invariant before a point hands out the scratch buffers at some statistics `s`: the point's own are the step from `s`,
    or from the reset values on a first column (before the first point `s` is whatever the buffers held). -/
theorem PhiS_open (c : Dev nD) (t : Fin cfg0.N) :
    PhiS V c t.val (Nat.le_of_lt t.isLt) ⊢ iprop(∃ s : St F,
      ⌜accAt V c t.val t.isLt = step (iblk V c 0 t) (iblk V c 1 t) (iblk V c 2 t) (iblk V c 3 t) (if condA (grid0.coords t) then reset else s)⌝
      ∗ ((owns (c : Thread nD τ) scM fullShare s.1 ∗ owns (c : Thread nD τ) scL fullShare s.2.1 ∗ owns (c : Thread nD τ) scC fullShare s.2.2.1 ∗ owns (c : Thread nD τ) scS fullShare s.2.2.2)
        ∗ scopedOthers (F := F) c) ∗ (∃ r, prngReg c r)) := by
  by_cases hz : t.val = 0
  · rw [PhiS_zero V c _ _ hz, PhiA_eq]
    iintro ⟨⟨⟨⟨%m, HM⟩, ⟨%l, HL⟩, ⟨%k, HC⟩, ⟨%u, HS⟩⟩, Hoth⟩, Hg⟩
    iexists (m, l, k, u)
    isplitr
    · ipureintro; rw [accAt_first V c t (by omega), if_pos ((hcondA t).mpr (by omega))]
    isplitl [HM HL HC HS Hoth]
    · isplitl [HM HL HC HS]
      · isplitl [HM]; · iexact HM
        isplitl [HL]; · iexact HL
        isplitl [HC]; · iexact HC
        iexact HS
      iexact Hoth
    iexact Hg
  · rw [PhiS_pos V c _ _ hz]
    iintro H
    iexists accAt V c (t.val - 1) (by omega)
    isplitr
    · ipureintro
      by_cases h0 : t.val % 4 = 0
      · rw [accAt_first V c t h0, if_pos ((hcondA t).mpr h0)]
      · rw [accAt_next V c t h0, if_neg fun h => h0 ((hcondA t).mp h)]
    iexact H

/-- After a point the output block holds the loss of the point's statistics on a last column, and what it held otherwise. -/
theorem leaves4 (c : Dev nD) (t : Fin cfg0.N) (s' : St F) (hs' : accAt V c t.val t.isLt = s') (d) :
    owns (c : Thread nD τ) (ms4 t) fullShare (if condC (grid0.coords t) then lossOf s' else (dat0 V c).before 4 t d) ⊢ (dat0 V c).leavesExact 4 t := by
  subst hs'
  by_cases hC : condC (grid0.coords t)
  · rw [if_pos hC, show (dat0 V c).leavesExact 4 t = owns (c : Thread nD τ) (ms4 t) fullShare ((dat0 V c).after 4 t) from by
      unfold Dat.leavesExact; rw [liveAt4 t hC], after0_4]
    exact .rfl
  · rw [if_neg hC, Dat.leavesExact_idle (dat0 V c) 4 t (idleAt4 t hC) (noFlush4 t hC)]
    iintro H; iexists _; iexact H

/-- The body at any point: the invariant hands the triple its statistics and takes back the point's. -/
theorem sound_body (c : Dev nD) (t : Fin cfg0.N) :
    iprop(PhiS V c t.val (Nat.le_of_lt t.isLt) ∗ (dat0 V c).owesAt () t.castSucc
      ∗ (∃ d, owns (c : Thread nD τ) (ms0 t) fullShare ((dat0 V c).before 0 t d)) ∗ (∃ d, owns (c : Thread nD τ) (ms1 t) fullShare ((dat0 V c).before 1 t d))
      ∗ (∃ d, owns (c : Thread nD τ) (ms2 t) fullShare ((dat0 V c).before 2 t d)) ∗ (∃ d, owns (c : Thread nD τ) (ms3 t) fullShare ((dat0 V c).before 3 t d))
      ∗ (∃ d, owns (c : Thread nD τ) (ms4 t) fullShare ((dat0 V c).before 4 t d)))
    ⊢ wp frame (wpE (defs₀ (F := F)) Variants.none c none) Set.univ (bodyAt0 t) (fun _ =>
      iprop(PhiS V c (t.val + 1) t.isLt ∗ (dat0 V c).owesAt () t.castSucc
        ∗ owns (c : Thread nD τ) (ms0 t) fullShare (iblk V c 0 t) ∗ owns (c : Thread nD τ) (ms1 t) fullShare (iblk V c 1 t)
        ∗ owns (c : Thread nD τ) (ms2 t) fullShare (iblk V c 2 t) ∗ owns (c : Thread nD τ) (ms3 t) fullShare (iblk V c 3 t) ∗ (dat0 V c).leavesExact 4 t)) := by
  rw [body_eq]
  rw [PhiS_succ]
  simp only [before0_0, before0_1, before0_2, before0_3]
  have hAC : ¬(condA (grid0.coords t) ∧ condC (grid0.coords t)) := fun h => by
    have := (hcondA t).mp h.1; have := (hcondC t).mp h.2; omega
  iintro ⟨HΦ, Ho, ⟨%d0, H0⟩, ⟨%d1, H1⟩, ⟨%d2, H2⟩, ⟨%d3, H3⟩, ⟨%d4, H4⟩⟩
  ihave HΦ' := (PhiS_open V c t) $$ HΦ
  icases HΦ' with ⟨%s, %hs, ⟨⟨HM, HL, HC, HS⟩, Hoth⟩, Hg⟩
  rw [hs]
  iapply (triple c (grid0.coords t) _ _ _ _ _ _ _ _ _ _ _ _ _ _ _ _ _ _ (iblk V c 0 t) (iblk V c 1 t) (iblk V c 2 t) (iblk V c 3 t)
    ((dat0 V c).before 4 t d4) s hAC Set.univ _)
  iframe H0 H1 H2 H3 H4 HM HL HC HS
  iintro ⟨H0, H1, H2, H3, H4, HM, HL, HC, HS⟩
  iframe HM HL HC HS Hoth Hg Ho H0 H1 H2 H3
  iapply (leaves4 V c t _ hs d4)
  iexact H4

theorem body_obligation0 (c : Dev nD) : BodyObligation (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [show (dat0 V c).Φ 0 = PhiS V c 0 (Nat.zero_le _) from rfl, PhiS_zero V c 0 _ rfl]

theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA_eq]
  iintro ⟨⟨⟨HM, HL, HC, HS⟩, Ho⟩, Hg⟩
  isplitl [HM HL HC HS Ho]
  · isplitl [HM HL HC HS]
    · isplitl [HM]; · iexists _; iexact HM
      isplitl [HL]; · iexists _; iexact HL
      isplitl [HC]; · iexists _; iexact HC
      iexists _; iexact HS
    iexact Ho
  iexact Hg

end Cert.KernelIdeal.R0

end
-- ==== Proof.KI.Runs1.lean ====
import proofs.«145934_j43250320671200_1_alg».proof.Proof.KI.Step

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Pt

theorem hcondA : ∀ t : Fin cfg1.N, condA (grid1.coords t) ↔ t.val % 4 = 0 :=
  (by decide +kernel : ∀ t : Fin grid1.N, condA (grid1.coords t) ↔ t.val % 4 = 0)
theorem hcondC : ∀ t : Fin cfg1.N, condC (grid1.coords t) ↔ t.val % 4 = 3 :=
  (by decide +kernel : ∀ t : Fin grid1.N, condC (grid1.coords t) ↔ t.val % 4 = 3)

theorem idleAt4 : ∀ t : Fin cfg1.N, ¬condC (grid1.coords t) → cfg1.idle 4 (grid1.coords t) = true := by decide +kernel
theorem noFlush4 : ∀ t : Fin cfg1.N, ¬condC (grid1.coords t) → (cfg1.win 4).flush t = false := by decide +kernel
theorem liveAt4 : ∀ t : Fin cfg1.N, condC (grid1.coords t) → cfg1.idle 4 (grid1.coords t) = false := by decide +kernel

abbrev ms0 (t : Fin cfg1.N) : Memref sig .tc .vmem S1024x768 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x768 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1 .f32 := win1_4.stage (cfg1.slots t 4)
abbrev hs4 (t : Fin cfg1.N) : (ms4 t).IsWhole := hstage1_4 ((cfg1.slots t 4).cast nbuf1_4)
abbrev scM : Memref sig .tc .vmem S1024x1 .f32 := Memref.whole cc1_scratch0
abbrev scL : Memref sig .tc .vmem S1024x1 .f32 := Memref.whole cc1_scratch1
abbrev scC : Memref sig .tc .vmem S1024x1 .f32 := Memref.whole cc1_scratch2
abbrev scS : Memref sig .tc .vmem S1024x1 .f32 := Memref.whole cc1_scratch3

/-- Both launches run the same kernel body. -/
theorem body_eq (t : Fin cfg1.N) : bodyAt1 (F := F) t = cc0__row_stats_kernel (grid1.coords t) (ms0 t) (hs0 t) (ms1 t) (hs1 t) (ms2 t) (hs2 t)
    (ms3 t) (hs3 t) (ms4 t) (hs4 t) scM (Memref.isWhole_whole _) scL (Memref.isWhole_whole _) scC (Memref.isWhole_whole _) scS (Memref.isWhole_whole _) := rfl

end Cert.KernelIdeal.R1

end
-- ==== Proof.KI.Body1.lean ====
import proofs.«145934_j43250320671200_1_alg».proof.Proof.KI.Runs1
import proofs.«145934_j43250320671200_1_alg».proof.Proof.KI.Run

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pt

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev ownScr : Finset (Ref sig .tc) := {cc1_scratch0, cc1_scratch1, cc1_scratch2, cc1_scratch3}

def scopedOthers (c : Dev nD) : sProp 𝕄 :=
  bigSep (((Finset.univ.filter fun b : Ref sig .tc => b.isScoped) \ Finset.univ.image (Pipeline.stageRef spec1)) \ ownScr)
    fun b => iprop(∃ f : Buf (Elt F) ((c : Thread nD τ).loc b), ((c : Thread nD τ).loc b) ↦{fullShare} f)

theorem PhiA_eq (c : Dev nD) :
    (Pipeline.ΦA spec1 c : sProp 𝕄)
      = iprop((((∃ d, owns (c : Thread nD τ) scM fullShare d) ∗ (∃ d, owns (c : Thread nD τ) scL fullShare d)
          ∗ (∃ d, owns (c : Thread nD τ) scC fullShare d) ∗ (∃ d, owns (c : Thread nD τ) scS fullShare d)) ∗ scopedOthers (F := F) c)
          ∗ (∃ r, prngReg c r)) := by
  unfold Pipeline.ΦA Pipeline.scopedRest scopedOthers
  rw [bigSep_sdiff_split (t := ownScr) (by decide)]
  rw [show ownScr = insert cc1_scratch0 (insert cc1_scratch1 (insert cc1_scratch2 {cc1_scratch3})) from rfl,
    bigSep_insert (by decide), bigSep_insert (by decide), bigSep_insert (by decide), bigSep_singleton]
  simp only [scM, scL, scC, scS, owns_whole]
  try rfl

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running statistics after point `n`: the point's blocks folded into what the point before left, or into the reset values on a first column. -/
def accAt (c : Dev nD) : (n : ℕ) → n < cfg1.N → St F
  | 0, hn => step (iblk V c 0 ⟨0, hn⟩) (iblk V c 1 ⟨0, hn⟩) (iblk V c 2 ⟨0, hn⟩) (iblk V c 3 ⟨0, hn⟩) reset
  | n + 1, hn => step (iblk V c 0 ⟨n + 1, hn⟩) (iblk V c 1 ⟨n + 1, hn⟩) (iblk V c 2 ⟨n + 1, hn⟩) (iblk V c 3 ⟨n + 1, hn⟩)
      (if (n + 1) % 4 = 0 then reset else accAt c n (Nat.lt_of_succ_lt hn))

theorem accAt_first (c : Dev nD) (t : Fin cfg1.N) (h : t.val % 4 = 0) :
    accAt V c t.val t.isLt = step (iblk V c 0 t) (iblk V c 1 t) (iblk V c 2 t) (iblk V c 3 t) reset := by
  obtain ⟨n, hn⟩ := t
  cases n with
  | zero => rfl
  | succ n =>
    have h' : (n + 1) % 4 = 0 := h
    show step _ _ _ _ (if (n + 1) % 4 = 0 then reset else accAt V c n _) = _
    rw [if_pos h']

theorem accAt_next (c : Dev nD) (t : Fin cfg1.N) (h : ¬ t.val % 4 = 0) :
    accAt V c t.val t.isLt = step (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h
  | succ n =>
    have h' : ¬ (n + 1) % 4 = 0 := h
    show step _ _ _ _ (if (n + 1) % 4 = 0 then reset else accAt V c n _) = _
    rw [if_neg h']
    rfl

def outAt (c : Dev nD) (n : ℕ) (hn : n < cfg1.N) : Vec F S1024x1 .f32 := lossOf (accAt V c n hn)

/-- The invariant before point `n`: after a point the four scratch buffers hold that point's statistics. -/
def PhiS (c : Dev nD) : (n : ℕ) → n ≤ cfg1.N → sProp 𝕄
  | 0, _ => Pipeline.ΦA spec1 c
  | n + 1, hn => iprop(((owns (c : Thread nD τ) scM fullShare (accAt V c n hn).1 ∗ owns (c : Thread nD τ) scL fullShare (accAt V c n hn).2.1
      ∗ owns (c : Thread nD τ) scC fullShare (accAt V c n hn).2.2.1 ∗ owns (c : Thread nD τ) scS fullShare (accAt V c n hn).2.2.2)
      ∗ scopedOthers (F := F) c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = outAt V c t.val t.isLt := by dsimp only [dat1]

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) scM fullShare (accAt V c n hn).1 ∗ owns (c : Thread nD τ) scL fullShare (accAt V c n hn).2.1
      ∗ owns (c : Thread nD τ) scC fullShare (accAt V c n hn).2.2.1 ∗ owns (c : Thread nD τ) scS fullShare (accAt V c n hn).2.2.2)
      ∗ scopedOthers (F := F) c) ∗ (∃ r, prngReg c r)) := rfl

theorem PhiS_pos (c : Dev nD) (n : ℕ) (h : n ≤ cfg1.N) (hz : n ≠ 0) :
    PhiS V c n h = iprop(((owns (c : Thread nD τ) scM fullShare (accAt V c (n - 1) (by omega)).1 ∗ owns (c : Thread nD τ) scL fullShare (accAt V c (n - 1) (by omega)).2.1
      ∗ owns (c : Thread nD τ) scC fullShare (accAt V c (n - 1) (by omega)).2.2.1 ∗ owns (c : Thread nD τ) scS fullShare (accAt V c (n - 1) (by omega)).2.2.2)
      ∗ scopedOthers (F := F) c) ∗ (∃ r, prngReg c r)) := by
  cases n with
  | zero => exact absurd rfl hz
  | succ n => rfl

theorem after0_0 (c : Dev nD) (t : Fin cfg1.N) : (dat1 V c).after 0 t = iblk V c 0 t := by dsimp only [dat1]
theorem after0_1 (c : Dev nD) (t : Fin cfg1.N) : (dat1 V c).after 1 t = iblk V c 1 t := by dsimp only [dat1]
theorem after0_2 (c : Dev nD) (t : Fin cfg1.N) : (dat1 V c).after 2 t = iblk V c 2 t := by dsimp only [dat1]
theorem after0_3 (c : Dev nD) (t : Fin cfg1.N) : (dat1 V c).after 3 t = iblk V c 3 t := by dsimp only [dat1]

theorem before0_0 (c : Dev nD) (t : Fin cfg1.N) (d) : (dat1 V c).before 0 t d = iblk V c 0 t :=
  ((dat1 V c).before_in_eq_fetched 0 rfl (fun _ => rfl) (fun _ _ _ => rfl) (fun t => by rw [after0_0]; unfold Dat.blockOf iblk; rw [A_eq1]; try rfl) t d).trans
    (by unfold Dat.fetched Dat.blockOf iblk; rw [A_eq1]; try rfl)
theorem before0_1 (c : Dev nD) (t : Fin cfg1.N) (d) : (dat1 V c).before 1 t d = iblk V c 1 t :=
  ((dat1 V c).before_in_eq_fetched 1 rfl (fun _ => rfl) (fun _ _ _ => rfl) (fun t => by rw [after0_1]; unfold Dat.blockOf iblk; rw [A_eq1]; try rfl) t d).trans
    (by unfold Dat.fetched Dat.blockOf iblk; rw [A_eq1]; try rfl)
theorem before0_2 (c : Dev nD) (t : Fin cfg1.N) (d) : (dat1 V c).before 2 t d = iblk V c 2 t :=
  ((dat1 V c).before_in_eq_fetched 2 rfl (fun _ => rfl) (fun _ _ _ => rfl) (fun t => by rw [after0_2]; unfold Dat.blockOf iblk; rw [A_eq1]; try rfl) t d).trans
    (by unfold Dat.fetched Dat.blockOf iblk; rw [A_eq1]; try rfl)
theorem before0_3 (c : Dev nD) (t : Fin cfg1.N) (d) : (dat1 V c).before 3 t d = iblk V c 3 t :=
  ((dat1 V c).before_in_eq_fetched 3 rfl (fun _ => rfl) (fun _ _ _ => rfl) (fun t => by rw [after0_3]; unfold Dat.blockOf iblk; rw [A_eq1]; try rfl) t d).trans
    (by unfold Dat.fetched Dat.blockOf iblk; rw [A_eq1]; try rfl)

/-- The invariant before a point hands out the scratch buffers at some statistics `s`: the point's own are the step from `s`,
    or from the reset values on a first column (before the first point `s` is whatever the buffers held). -/
theorem PhiS_open (c : Dev nD) (t : Fin cfg1.N) :
    PhiS V c t.val (Nat.le_of_lt t.isLt) ⊢ iprop(∃ s : St F,
      ⌜accAt V c t.val t.isLt = step (iblk V c 0 t) (iblk V c 1 t) (iblk V c 2 t) (iblk V c 3 t) (if condA (grid1.coords t) then reset else s)⌝
      ∗ ((owns (c : Thread nD τ) scM fullShare s.1 ∗ owns (c : Thread nD τ) scL fullShare s.2.1 ∗ owns (c : Thread nD τ) scC fullShare s.2.2.1 ∗ owns (c : Thread nD τ) scS fullShare s.2.2.2)
        ∗ scopedOthers (F := F) c) ∗ (∃ r, prngReg c r)) := by
  by_cases hz : t.val = 0
  · rw [PhiS_zero V c _ _ hz, PhiA_eq]
    iintro ⟨⟨⟨⟨%m, HM⟩, ⟨%l, HL⟩, ⟨%k, HC⟩, ⟨%u, HS⟩⟩, Hoth⟩, Hg⟩
    iexists (m, l, k, u)
    isplitr
    · ipureintro; rw [accAt_first V c t (by omega), if_pos ((hcondA t).mpr (by omega))]
    isplitl [HM HL HC HS Hoth]
    · isplitl [HM HL HC HS]
      · isplitl [HM]; · iexact HM
        isplitl [HL]; · iexact HL
        isplitl [HC]; · iexact HC
        iexact HS
      iexact Hoth
    iexact Hg
  · rw [PhiS_pos V c _ _ hz]
    iintro H
    iexists accAt V c (t.val - 1) (by omega)
    isplitr
    · ipureintro
      by_cases h0 : t.val % 4 = 0
      · rw [accAt_first V c t h0, if_pos ((hcondA t).mpr h0)]
      · rw [accAt_next V c t h0, if_neg fun h => h0 ((hcondA t).mp h)]
    iexact H

/-- After a point the output block holds the loss of the point's statistics on a last column, and what it held otherwise. -/
theorem leaves4 (c : Dev nD) (t : Fin cfg1.N) (s' : St F) (hs' : accAt V c t.val t.isLt = s') (d) :
    owns (c : Thread nD τ) (ms4 t) fullShare (if condC (grid1.coords t) then lossOf s' else (dat1 V c).before 4 t d) ⊢ (dat1 V c).leavesExact 4 t := by
  subst hs'
  by_cases hC : condC (grid1.coords t)
  · rw [if_pos hC, show (dat1 V c).leavesExact 4 t = owns (c : Thread nD τ) (ms4 t) fullShare ((dat1 V c).after 4 t) from by
      unfold Dat.leavesExact; rw [liveAt4 t hC], after1_4]
    exact .rfl
  · rw [if_neg hC, Dat.leavesExact_idle (dat1 V c) 4 t (idleAt4 t hC) (noFlush4 t hC)]
    iintro H; iexists _; iexact H

/-- The body at any point: the invariant hands the triple its statistics and takes back the point's. -/
theorem sound_body (c : Dev nD) (t : Fin cfg1.N) :
    iprop(PhiS V c t.val (Nat.le_of_lt t.isLt) ∗ (dat1 V c).owesAt () t.castSucc
      ∗ (∃ d, owns (c : Thread nD τ) (ms0 t) fullShare ((dat1 V c).before 0 t d)) ∗ (∃ d, owns (c : Thread nD τ) (ms1 t) fullShare ((dat1 V c).before 1 t d))
      ∗ (∃ d, owns (c : Thread nD τ) (ms2 t) fullShare ((dat1 V c).before 2 t d)) ∗ (∃ d, owns (c : Thread nD τ) (ms3 t) fullShare ((dat1 V c).before 3 t d))
      ∗ (∃ d, owns (c : Thread nD τ) (ms4 t) fullShare ((dat1 V c).before 4 t d)))
    ⊢ wp frame (wpE (defs₀ (F := F)) Variants.none c none) Set.univ (bodyAt1 t) (fun _ =>
      iprop(PhiS V c (t.val + 1) t.isLt ∗ (dat1 V c).owesAt () t.castSucc
        ∗ owns (c : Thread nD τ) (ms0 t) fullShare (iblk V c 0 t) ∗ owns (c : Thread nD τ) (ms1 t) fullShare (iblk V c 1 t)
        ∗ owns (c : Thread nD τ) (ms2 t) fullShare (iblk V c 2 t) ∗ owns (c : Thread nD τ) (ms3 t) fullShare (iblk V c 3 t) ∗ (dat1 V c).leavesExact 4 t)) := by
  rw [body_eq]
  rw [PhiS_succ]
  simp only [before0_0, before0_1, before0_2, before0_3]
  have hAC : ¬(condA (grid1.coords t) ∧ condC (grid1.coords t)) := fun h => by
    have := (hcondA t).mp h.1; have := (hcondC t).mp h.2; omega
  iintro ⟨HΦ, Ho, ⟨%d0, H0⟩, ⟨%d1, H1⟩, ⟨%d2, H2⟩, ⟨%d3, H3⟩, ⟨%d4, H4⟩⟩
  ihave HΦ' := (PhiS_open V c t) $$ HΦ
  icases HΦ' with ⟨%s, %hs, ⟨⟨HM, HL, HC, HS⟩, Hoth⟩, Hg⟩
  rw [hs]
  iapply (triple c (grid1.coords t) _ _ _ _ _ _ _ _ _ _ _ _ _ _ _ _ _ _ (iblk V c 0 t) (iblk V c 1 t) (iblk V c 2 t) (iblk V c 3 t)
    ((dat1 V c).before 4 t d4) s hAC Set.univ _)
  iframe H0 H1 H2 H3 H4 HM HL HC HS
  iintro ⟨H0, H1, H2, H3, H4, HM, HL, HC, HS⟩
  iframe HM HL HC HS Hoth Hg Ho H0 H1 H2 H3
  iapply (leaves4 V c t _ hs d4)
  iexact H4

theorem body_obligation1 (c : Dev nD) : BodyObligation (dat1 (F := F) V c) (defs₀ (F := F)) Variants.none () Set.univ := fun t => by
  rw [bigSep_W1, bigSep_W1]
  exact sound_body V c t

theorem hin1 (c : Dev nD) : Pipeline.ΦA spec1 c ⊢ (dat1 V c).Φ 0 := by
  rw [show (dat1 V c).Φ 0 = PhiS V c 0 (Nat.zero_le _) from rfl, PhiS_zero V c 0 _ rfl]

theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA_eq]
  iintro ⟨⟨⟨HM, HL, HC, HS⟩, Ho⟩, Hg⟩
  isplitl [HM HL HC HS Ho]
  · isplitl [HM HL HC HS]
    · isplitl [HM]; · iexists _; iexact HM
      isplitl [HL]; · iexists _; iexact HL
      isplitl [HC]; · iexists _; iexact HC
      iexists _; iexact HS
    iexact Ho
  iexact Hg

end Cert.KernelIdeal.R1

end
-- ==== Proof.KI.Region0.lean ====
import proofs.«145934_j43250320671200_1_alg».proof.Proof.Gen.KernelIdeal.Regions
import proofs.«145934_j43250320671200_1_alg».proof.Proof.KI.Body0
import proofs.«145934_j43250320671200_1_alg».proof.Proof.KI.Body1
import Idealize.ShloMosaic.Lib.Pipeline.Frame
import Idealize.ShloMosaic.Lib.Pipeline.Regions
import Idealize.ShloMosaic.Lib.Pipeline.RegionsLoop

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev E4 : (c : Dev nD) → (b : Ref sig .tc) → Buf (Elt F) ((c : Thread nD τ).loc b) := fun c b => V4 m c b

def o5 (c : Dev nD) : Buf (Elt F) ((c : Thread nD τ).loc main_v14) := (R0.dat0 (E4 m) c).arrAt 4 cfg0.N

abbrev W5 (c : Dev nD) : Valuation τ sig (Elt F) := Function.update (V4 m c) main_v14 (o5 m c)
abbrev E5 : (c : Dev nD) → (b : Ref sig .tc) → Buf (Elt F) ((c : Thread nD τ).loc b) := fun c b => W5 m c b

def o6 (c : Dev nD) : Buf (Elt F) ((c : Thread nD τ).loc main_v15) := (R1.dat1 (E5 m) c).arrAt 4 cfg1.N

abbrev W6 (c : Dev nD) : Valuation τ sig (Elt F) := Function.update (W5 m c) main_v15 (o6 m c)

def outs : Outs (F := F) := fun J r c => match J with
  | 5 => W5 m c (Proc.devRef .tc r)
  | 6 => W6 m c (Proc.devRef .tc r)
  | _ => V4 m c (Proc.devRef .tc r)

theorem outs_5 (c : Dev nD) : outs m 5 main_v14 c = o5 m c := by
  dsimp only [outs]; exact Function.update_self ..
theorem outs_6 (c : Dev nD) : outs m 6 main_v15 c = o6 m c := by
  dsimp only [outs]; exact Function.update_self ..
theorem V5_eq (c : Dev nD) : V5 m (outs m) c = W5 m c := by
  unfold V5; rw [outs_5]
theorem V6_eq (c : Dev nD) : V6 m (outs m) c = W6 m c := by
  unfold V6; rw [outs_6, V5_eq]

abbrev X5 : (c : Dev nD) → (b : Ref sig .tc) → Buf (Elt F) ((c : Thread nD τ).loc b) := fun c b => V5 m (outs m) c b
abbrev X6 : (c : Dev nD) → (b : Ref sig .tc) → Buf (Elt F) ((c : Thread nD τ).loc b) := fun c b => V6 m (outs m) c b

def pdats : (p : Fin 2) → (c : Dev nD) → Dat τ (Elt F) Unit ℕ (UR sig nD τ) ℕ (cfgs p) c
  | ⟨0, _⟩ => fun c => R0.dat0 (E4 m) c
  | ⟨1, _⟩ => fun c => R1.dat1 (E5 m) c

abbrev R (c : Dev nD) : sProp 𝕄 := iprop((∃ r, prngReg c r) ∗ ∃ W, owes (c : Thread nD τ) (0 : CellTallies nD τ sig Unit) W)
abbrev E : Fin 3 → Dev nD → sProp 𝕄 := fun _ c => R c
abbrev L0 : GSem nD τ sig → Finset Unit := fun _ => ∅
abbrev lv0 : GSem nD τ sig → Unit → ℕ := fun _ _ => 0

/-- At the first launch's exit an input array holds what it held and the output array what the write-backs leave. -/
theorem hF0 (c : Dev nD) : ∀ w : Fin cfg0.W, (R0.dat0 (E4 m) c).arrAt w cfg0.N = X5 m c (Pipeline.arrRef spec0 w)
  | ⟨0, _⟩ => ((R0.dat0 (E4 m) c).arrAt_in 0 rfl _).trans ((R0.A_eq0 (E4 m) c 0).trans (V5_of m (outs m) c main_v5 (by decide)).symm)
  | ⟨1, _⟩ => ((R0.dat0 (E4 m) c).arrAt_in 1 rfl _).trans ((R0.A_eq0 (E4 m) c 1).trans (V5_of m (outs m) c main_v11 (by decide)).symm)
  | ⟨2, _⟩ => ((R0.dat0 (E4 m) c).arrAt_in 2 rfl _).trans ((R0.A_eq0 (E4 m) c 2).trans (V5_of m (outs m) c main_v12 (by decide)).symm)
  | ⟨3, _⟩ => ((R0.dat0 (E4 m) c).arrAt_in 3 rfl _).trans ((R0.A_eq0 (E4 m) c 3).trans (V5_of m (outs m) c main_v13 (by decide)).symm)
  | ⟨4, _⟩ => show o5 m c = V5 m (outs m) c main_v14 from by
      rw [V5_eq]; exact (Function.update_self (Proc.devRef .tc main_v14 : DevRef τ sig) (o5 m c) (V4 m c)).symm

theorem hrest0 (c : Dev nD) : ∀ b, b ∉ Finset.univ.image (Pipeline.arrRef spec0) → X5 m c b = E4 m c b :=
  fun b hb => V5_of m (outs m) c b fun h => hb (Finset.mem_image.mpr ⟨4, Finset.mem_univ _, (List.mem_singleton.mp h).symm⟩)

set_option backward.isDefEq.respectTransparency.types false in
/-- A launch as a segment of the program: entered with every unscoped buffer at `Vin` and left with them at `Vout`, which is `Vin`
    but for what the launch's arrays end at; beside the buffers ride the generator register and an empty debt. -/
def regOf (p : Fin 2) (lf : Pipeline.LaunchFacts (nD := nD) (τ := τ) cfgs p) (Vin Vout : (c : Dev nD) → Valuation τ sig (Elt F))
    (hbody : ∀ c, Pipeline.BodyObligation (pdats m p c) (defs₀ (F := F)) Variants.none () Set.univ)
    (hshare : ∀ c w, (pdats m p c).share w = fullShare) (howed : ∀ c t, (pdats m p c).owed t = 0)
    (hrec : ∀ c t, (pdats m p c).recorded t = Set.univ)
    (hA : ∀ c w, (pdats m p c).A w = Vin c (Pipeline.arrRef (pcfgs (F := F) p).spec w))
    (hF : ∀ c w, (pdats m p c).arrAt w (cfgs p).N = Vout c (Pipeline.arrRef (pcfgs (F := F) p).spec w))
    (hrest : ∀ c (b : Ref sig .tc), b ∉ Finset.univ.image (Pipeline.arrRef (pcfgs (F := F) p).spec) → Vout c b = Vin c b)
    (hin : ∀ c, Pipeline.ΦA (pcfgs (F := F) p).spec c ⊢ (pdats m p c).Φ 0)
    (hout : ∀ c, (pdats m p c).Φ (Fin.last (cfgs p).N) ⊢ Pipeline.ΦA (pcfgs (F := F) p).spec c) :
    RegionSeg (pcfgs (F := F)) adm (pdats m) () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Vin c b)
  hentry c := by
    rw [Pipeline.ownSems0_none]
    have hsplit := Pipeline.arrays_of_unscopedBufs (p := p) (pcfgs (F := F)) adm (pdats m) lf.win lf.arr_whole c (hshare c) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c 0 ▸ trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (hshare c) (fun b => Vin c b) (fun b => Vout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- The first launch: from the contents the host prefix leaves to those contents updated at its output array. -/
def reg0 : RegionSeg (pcfgs (F := F)) adm (pdats m) () defs₀ Variants.none L0 lv0 0 :=
  regOf m 0 launch0 (V4 m) (V5 m (outs m)) (R0.body_obligation0 (E4 m)) (fun c => (pdats m 0 c).share_full fun _ => rfl) (fun _ _ => rfl) (fun _ _ => rfl)
    (R0.A_eq0 (E4 m)) (hF0 m) (hrest0 m) (R0.hin0 (E4 m)) (R0.hout0 (E4 m))

end Cert.KernelIdeal.Launch

end
-- ==== Proof.KI.Region1.lean ====
import proofs.«145934_j43250320671200_1_alg».proof.Proof.KI.Region0
import Idealize.ShloMosaic.Lib.Pipeline.Frame
import Idealize.ShloMosaic.Lib.Pipeline.Regions
import Idealize.ShloMosaic.Lib.Pipeline.RegionsLoop

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem X6_of (c : Dev nD) (r : Ref sig .tc) (h : r ∉ ([main_v15] : List (Ref sig .tc))) : X6 m c r = E5 m c r :=
  (V6_of m (outs m) c r h).trans (congrFun (V5_eq m c) _)

theorem hF1 (c : Dev nD) : ∀ w : Fin cfg1.W, (R1.dat1 (E5 m) c).arrAt w cfg1.N = X6 m c (Pipeline.arrRef spec1 w)
  | ⟨0, _⟩ => ((R1.dat1 (E5 m) c).arrAt_in 0 rfl _).trans ((R1.A_eq1 (E5 m) c 0).trans (X6_of m c main_v11 (by decide)).symm)
  | ⟨1, _⟩ => ((R1.dat1 (E5 m) c).arrAt_in 1 rfl _).trans ((R1.A_eq1 (E5 m) c 1).trans (X6_of m c main_v5 (by decide)).symm)
  | ⟨2, _⟩ => ((R1.dat1 (E5 m) c).arrAt_in 2 rfl _).trans ((R1.A_eq1 (E5 m) c 2).trans (X6_of m c main_v12 (by decide)).symm)
  | ⟨3, _⟩ => ((R1.dat1 (E5 m) c).arrAt_in 3 rfl _).trans ((R1.A_eq1 (E5 m) c 3).trans (X6_of m c main_v13 (by decide)).symm)
  | ⟨4, _⟩ => show o6 m c = V6 m (outs m) c main_v15 from by
      rw [V6_eq]; exact (Function.update_self (Proc.devRef .tc main_v15 : DevRef τ sig) (o6 m c) (W5 m c)).symm

theorem hrest1 (c : Dev nD) : ∀ b, b ∉ Finset.univ.image (Pipeline.arrRef spec1) → X6 m c b = E5 m c b :=
  fun b hb => X6_of m c b fun h => hb (Finset.mem_image.mpr ⟨4, Finset.mem_univ _, (List.mem_singleton.mp h).symm⟩)

/-- The second launch: from the contents the first leaves to those updated at its own output array. -/
def reg1 : RegionSeg (pcfgs (F := F)) adm (pdats m) () defs₀ Variants.none L0 lv0 1 :=
  regOf m 1 launch1 (V5 m (outs m)) (V6 m (outs m)) (R1.body_obligation1 (E5 m)) (fun c => (pdats m 1 c).share_full fun _ => rfl) (fun _ _ => rfl) (fun _ _ => rfl)
    (fun c w => (R1.A_eq1 (E5 m) c w).trans (congrFun (V5_eq m c).symm _)) (hF1 m) (fun c b hb => (hrest1 m c b hb).trans (congrFun (V5_eq m c).symm _))
    (R1.hin1 (E5 m)) (R1.hout1 (E5 m))

end Cert.KernelIdeal.Launch

end
-- ==== Proof.KI.Frame.lean ====
import proofs.«145934_j43250320671200_1_alg».proof.Proof.KI.Region1
import Idealize.ShloMosaic.Lib.Pipeline.Frame
import Idealize.ShloMosaic.Lib.Pipeline.Regions
import Idealize.ShloMosaic.Lib.Pipeline.RegionsLoop

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev u₀ : UR sig nD τ := initOf (Pipeline.cells cfgs cellOf_inj) (Pipeline.launchToks cfgs cellOf_inj)

theorem hu₀ : (ownU (u₀) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- Every fair execution of the program ends with the result buffer at what the host tail computes from what the two launches
    leave, and each argument as launched: the segments' chain, host stretches and launches alternating. -/
theorem run_value : θ_run defs (onTc (τ := τ) (main (F := F))) ⟨m, fun _ => 0, ρ⟩ (fun r => ∀ c : Dev nD,
      r.2.mem ((c.tc : Thread nD τ).loc main_v21) = V7 m (outs m) c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm (pdats m) () cellOf_inj emb₁ defs₀ Variants.none L0 lv0 m ρ main
    (segs m (outs m) Variants.none L0 lv0 E () (pdats m) (reg0 m) (reg1 m))
    (fun c Q => by
      rewrite [main_chain c, Seg.run_eq_chain,
        show (segs m (outs m) Variants.none L0 lv0 E () (pdats m) (reg0 m) (reg1 m) c).map Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (fun _ => 0) (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m (outs m) c))
    (hch := fun c => ⟨.rfl, .rfl, .rfl, .rfl, .rfl, .rfl, .rfl, sep_mono .rfl (hE2 c)⟩)
    (hinit := ?_)
    (QY := fun c s => s.mem ((c.tc : Thread nD τ).loc main_v21) = V7 m (outs m) c (Proc.devRef .tc main_v21)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  ·
    refine Pipeline.initEach L0 lv0 fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨h (Proc.devRef .tc main_v21) (Finset.mem_filter.mpr ⟨StableHlo.devRef_mem_tcRefs main_v21, by decide⟩),
        (h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c),
        (h (Proc.devRef .tc main_arg2) (Finset.mem_filter.mpr ⟨StableHlo.devRef_mem_tcRefs main_arg2, by decide⟩)).trans (V7_main_arg2 m (outs m) c)⟩
    · iexact HSI

/-- The frame is the value run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.KernelIdeal.Launch

end
-- ==== Proof.Spec.lean ====
import Idealize.ShloMosaic.PureOps.Ideal
import Idealize.ShloMosaic.PureOps.Ideal.Laws
import Mathlib.Analysis.SpecialFunctions.Log.Basic
import Mathlib.Algebra.BigOperators.Fin
import Mathlib.Tactic.FinCases

noncomputable section

namespace Cert.Spec

open Idealize.ShloMosaic

/-- The reciprocal of the value the reference's temperature word denotes. -/
def invT : EReal := ((134217728 / 9395241 : ℝ) : EReal)

def epsN : EReal := Ideal.ofBits .f32 0x322BCC77#32

/-- A row divided by its Euclidean norm, the norm clamped from below. -/
def nrm (x : Fin 4096 → Fin 768 → EReal) (i : Fin 4096) (d : Fin 768) : EReal :=
  Ideal.div (x i d) (max (Ideal.sqrt (∑ e : Fin 768, x i e * x i e)) epsN)

def dotRow (a b : Fin 4096 → Fin 768 → EReal) (i j : Fin 4096) : EReal := ∑ d : Fin 768, a i d * b j d

def mask (lab : Fin 4096 → BitVec 32) (i j : Fin 4096) : EReal := if lab i = lab j then 1 else 0

def col (k : Fin 4) (q : Fin 1024) : Fin 4096 := ⟨1024 * k.val + q.val, by have := k.isLt; have := q.isLt; omega⟩

/-- The log-softmax of row `i` of `L` at column `j`, through the row's maximum. -/
def rowLSM (L : Fin 4096 → Fin 4096 → EReal) (i j : Fin 4096) : EReal :=
  (L i j - max ⊥ ((Finset.univ : Finset (Fin 4096)).fold max ⊥ (fun j' => L i j')))
    - Ideal.log (∑ j' : Fin 4096, Ideal.exp (L i j' - max ⊥ ((Finset.univ : Finset (Fin 4096)).fold max ⊥ (fun j'' => L i j''))))

/-- The reference's loss: the mean masked negative log-softmax along the rows and along the columns, averaged. -/
def refLoss (L μ : Fin 4096 → Fin 4096 → EReal) : EReal :=
  Ideal.div
    ((-(Ideal.div (∑ i : Fin 4096, ∑ j : Fin 4096, μ i j * rowLSM L i j) ((4096 : ℝ) : EReal)))
      + (-(Ideal.div (∑ j : Fin 4096, ∑ i : Fin 4096, μ i j * rowLSM (fun a b => L b a) j i) ((4096 : ℝ) : EReal))))
    ((2 : ℝ) : EReal)

structure Acc where
  m : EReal
  l : EReal
  c : EReal
  s : EReal

def Acc.init : Acc := ⟨⊥, 0, 0, 0⟩

/-- One block of 1024 logits `x` and mask entries `μ` folded into the running statistics: the sum of exponentials is rescaled to the new maximum. -/
def Acc.step (x μ : Fin 1024 → EReal) (a : Acc) : Acc where
  m := max a.m ((Finset.univ : Finset (Fin 1024)).fold max ⊥ x)
  l := Ideal.exp (a.m - max a.m ((Finset.univ : Finset (Fin 1024)).fold max ⊥ x)) * a.l
        + ∑ q : Fin 1024, Ideal.exp (x q - max a.m ((Finset.univ : Finset (Fin 1024)).fold max ⊥ x))
  c := a.c + ∑ q : Fin 1024, μ q
  s := a.s + ∑ q : Fin 1024, μ q * x q

def Acc.after (x μ : Fin 4096 → EReal) : (n : ℕ) → n ≤ 4 → Acc
  | 0, _ => Acc.init
  | n + 1, h => Acc.step (fun q => x (col ⟨n, by omega⟩ q)) (fun q => μ (col ⟨n, by omega⟩ q)) (Acc.after x μ n (by omega))

def Acc.out (a : Acc) : EReal := (a.m + Ideal.log a.l) * a.c - a.s

/-- What the kernel stores for a row: `(m + log l) * c - s` of the statistics after its four column blocks. -/
def rowOut (x μ : Fin 4096 → EReal) : EReal := (Acc.after x μ 4 le_rfl).out

def kerLoss (L L' μ : Fin 4096 → Fin 4096 → EReal) : EReal :=
  Ideal.div
    (Ideal.div (∑ i : Fin 4096, rowOut (L i) (μ i)) ((4096 : ℝ) : EReal)
      + Ideal.div (∑ i : Fin 4096, rowOut (L' i) (μ i)) ((4096 : ℝ) : EReal))
    ((2 : ℝ) : EReal)

private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

private theorem coe_max (a b : ℝ) : ((max a b : ℝ) : EReal) = max (a : EReal) (b : EReal) :=
  EReal.coe_strictMono.monotone.map_max

private theorem dotRow_coe (A B : Fin 4096 → Fin 768 → ℝ) (i j : Fin 4096) :
    dotRow (fun i d => ((A i d : ℝ) : EReal)) (fun i d => ((B i d : ℝ) : EReal)) i j
      = ((∑ d : Fin 768, A i d * B j d : ℝ) : EReal) := by
  unfold dotRow
  rw [← coe_sum]; exact Finset.sum_congr rfl (fun d _ => (EReal.coe_mul _ _).symm)

private theorem ofBits_temp : Ideal.ofBits .f32 0x3D8F5C29#32 = ((9395241 / 134217728 : ℝ) : EReal) := by
  simp [Ideal.ofBits, Ideal.ieee, -EReal.coe_mul]; norm_num

private def colEquiv : Fin 4 × Fin 1024 ≃ Fin 4096 where
  toFun p := col p.1 p.2
  invFun j := (⟨j.val / 1024, by have := j.isLt; omega⟩, ⟨j.val % 1024, Nat.mod_lt _ (by norm_num)⟩)
  left_inv p := by
    rcases p with ⟨k, q⟩
    have hk := k.isLt
    have hq := q.isLt
    apply Prod.ext <;> apply Fin.ext <;> simp only [col] <;> omega
  right_inv j := by
    apply Fin.ext
    simp only [col]
    omega

private theorem sum_col {α : Type} [AddCommMonoid α] (f : Fin 4096 → α) :
    ∑ j : Fin 4096, f j = ∑ k : Fin 4, ∑ q : Fin 1024, f (col k q) :=
  (Fintype.sum_equiv colEquiv (fun p => f (col p.1 p.2)) f (fun _ => rfl)).symm.trans
    (Fintype.sum_prod_type' (fun k q => f (col k q)))

private theorem ne4096 : (Finset.univ : Finset (Fin 4096)).Nonempty := ⟨⟨0, by norm_num⟩, Finset.mem_univ _⟩
private theorem ne1024 : (Finset.univ : Finset (Fin 1024)).Nonempty := ⟨⟨0, by norm_num⟩, Finset.mem_univ _⟩

private theorem fold_max_coe {ι : Type} [Fintype ι] (hne : (Finset.univ : Finset ι).Nonempty) (y : ι → ℝ) :
    (Finset.univ : Finset ι).fold max ⊥ (fun q => ((y q : ℝ) : EReal))
      = ((Finset.univ.sup' hne y : ℝ) : EReal) := by
  apply le_antisymm
  · exact (Finset.fold_max_le _).mpr
      ⟨bot_le, fun q _ => EReal.coe_le_coe_iff.mpr (Finset.le_sup' y (Finset.mem_univ q))⟩
  · obtain ⟨q, _, hq⟩ := Finset.exists_mem_eq_sup' hne y
    rw [hq]
    exact (Finset.le_fold_max _).mpr (Or.inr ⟨q, Finset.mem_univ q, le_rfl⟩)

/-- A sum of exponentials taken at the maximum `a` is moved to the maximum `b` by the factor `exp (a - b)`. -/
private theorem rescale {ι : Type} (s : Finset ι) (f : ι → ℝ) (a b : ℝ) :
    Real.exp (a - b) * ∑ i ∈ s, Real.exp (f i - a) = ∑ i ∈ s, Real.exp (f i - b) := by
  rw [Finset.mul_sum]
  refine Finset.sum_congr rfl (fun i _ => ?_)
  rw [← Real.exp_add]
  congr 1
  ring

private def rM (x : Fin 4096 → ℝ) : ℝ := Finset.univ.sup' ne4096 x
private def rZ (x : Fin 4096 → ℝ) : ℝ := ∑ j : Fin 4096, Real.exp (x j - rM x)
private def rC (m : Fin 4096 → ℝ) : ℝ := ∑ j : Fin 4096, m j
private def rS (x m : Fin 4096 → ℝ) : ℝ := ∑ j : Fin 4096, m j * x j
private def rowR (x m : Fin 4096 → ℝ) : ℝ := (rM x + Real.log (rZ x)) * rC m - rS x m

private theorem rZ_pos (x : Fin 4096 → ℝ) : 0 < rZ x :=
  Finset.sum_pos (fun _ _ => Real.exp_pos _) ne4096

/-- Over the reals the masked sum of a row's log-probabilities is `-((M + log Z) * C - S)`, by distributivity. -/
private theorem ref_row (X : Fin 4096 → Fin 4096 → ℝ) (m : Fin 4096 → ℝ) (i : Fin 4096) :
    ∑ j : Fin 4096, ((m j : ℝ) : EReal) * rowLSM (fun a b => ((X a b : ℝ) : EReal)) i j
      = ((-(rowR (X i) m) : ℝ) : EReal) := by
  have hfold : (Finset.univ : Finset (Fin 4096)).fold max ⊥ (fun j' => ((X i j' : ℝ) : EReal))
      = ((rM (X i) : ℝ) : EReal) := fold_max_coe ne4096 (X i)
  have hZ : (∑ j' : Fin 4096, Ideal.exp (((X i j' : ℝ) : EReal) - ((rM (X i) : ℝ) : EReal)))
      = ((rZ (X i) : ℝ) : EReal) := by
    rw [rZ, ← coe_sum]
    exact Finset.sum_congr rfl (fun j' _ => by rw [← EReal.coe_sub, Ideal.exp_coe])
  have hterm : ∀ j : Fin 4096, ((m j : ℝ) : EReal) * rowLSM (fun a b => ((X a b : ℝ) : EReal)) i j
      = ((m j * (X i j - rM (X i) - Real.log (rZ (X i))) : ℝ) : EReal) := by
    intro j
    unfold rowLSM
    rw [hfold, max_eq_right bot_le, hZ, Ideal.log_coe, if_neg (not_le.mpr (rZ_pos (X i))),
      ← EReal.coe_sub, ← EReal.coe_sub, ← EReal.coe_mul]
  rw [Finset.sum_congr rfl (fun j _ => hterm j), coe_sum]
  refine congrArg Real.toEReal ?_
  unfold rowR rC rS
  simp only [mul_sub, Finset.sum_sub_distrib, ← Finset.sum_mul]
  ring

private theorem sum_exp_coe (y : Fin 1024 → ℝ) (M : ℝ) :
    (∑ q : Fin 1024, Ideal.exp (((y q : ℝ) : EReal) - ((M : ℝ) : EReal))) = ((∑ q : Fin 1024, Real.exp (y q - M) : ℝ) : EReal) := by
  rw [← coe_sum]
  exact Finset.sum_congr rfl (fun q _ => by rw [← EReal.coe_sub, Ideal.exp_coe])

private theorem sum_mul_coe (ν y : Fin 1024 → ℝ) :
    (∑ q : Fin 1024, ((ν q : ℝ) : EReal) * ((y q : ℝ) : EReal)) = ((∑ q : Fin 1024, ν q * y q : ℝ) : EReal) := by
  rw [← coe_sum]
  exact Finset.sum_congr rfl (fun q _ => (EReal.coe_mul _ _).symm)

private theorem step_init (y ν : Fin 1024 → ℝ) :
    Acc.step (fun q => ((y q : ℝ) : EReal)) (fun q => ((ν q : ℝ) : EReal)) Acc.init
      = ⟨((Finset.univ.sup' ne1024 y : ℝ) : EReal),
         ((∑ q : Fin 1024, Real.exp (y q - Finset.univ.sup' ne1024 y) : ℝ) : EReal),
         ((∑ q : Fin 1024, ν q : ℝ) : EReal),
         ((∑ q : Fin 1024, ν q * y q : ℝ) : EReal)⟩ := by
  simp only [Acc.step, Acc.init]
  rw [fold_max_coe ne1024 y, max_eq_right bot_le, sum_exp_coe, sum_mul_coe, coe_sum, mul_zero, zero_add, zero_add, zero_add]

private theorem step_real (y ν : Fin 1024 → ℝ) (m l c s : ℝ) :
    Acc.step (fun q => ((y q : ℝ) : EReal)) (fun q => ((ν q : ℝ) : EReal))
        ⟨((m : ℝ) : EReal), ((l : ℝ) : EReal), ((c : ℝ) : EReal), ((s : ℝ) : EReal)⟩
      = ⟨((max m (Finset.univ.sup' ne1024 y) : ℝ) : EReal),
         ((Real.exp (m - max m (Finset.univ.sup' ne1024 y)) * l
            + ∑ q : Fin 1024, Real.exp (y q - max m (Finset.univ.sup' ne1024 y)) : ℝ) : EReal),
         ((c + ∑ q : Fin 1024, ν q : ℝ) : EReal),
         ((s + ∑ q : Fin 1024, ν q * y q : ℝ) : EReal)⟩ := by
  simp only [Acc.step]
  rw [fold_max_coe ne1024 y, ← coe_max, sum_exp_coe, sum_mul_coe, coe_sum, ← EReal.coe_sub, Ideal.exp_coe, ← EReal.coe_mul,
    ← EReal.coe_add, ← EReal.coe_add, ← EReal.coe_add]

/-- Four column blocks folded in turn leave the whole row's maximum, its sum of exponentials at that maximum, and its masked count and sum. -/
private theorem after4_real (x m : Fin 4096 → ℝ) :
    Acc.after (fun j => ((x j : ℝ) : EReal)) (fun j => ((m j : ℝ) : EReal)) 4 le_rfl
      = ⟨((rM x : ℝ) : EReal), ((rZ x : ℝ) : EReal), ((rC m : ℝ) : EReal), ((rS x m : ℝ) : EReal)⟩ := by
  have e : Acc.after (fun j => ((x j : ℝ) : EReal)) (fun j => ((m j : ℝ) : EReal)) 4 le_rfl
      = Acc.step (fun q => ((x (col 3 q) : ℝ) : EReal)) (fun q => ((m (col 3 q) : ℝ) : EReal))
          (Acc.step (fun q => ((x (col 2 q) : ℝ) : EReal)) (fun q => ((m (col 2 q) : ℝ) : EReal))
            (Acc.step (fun q => ((x (col 1 q) : ℝ) : EReal)) (fun q => ((m (col 1 q) : ℝ) : EReal))
              (Acc.step (fun q => ((x (col 0 q) : ℝ) : EReal)) (fun q => ((m (col 0 q) : ℝ) : EReal))
                Acc.init))) := rfl
  rw [e, step_init (fun q => x (col 0 q)) (fun q => m (col 0 q)),
    step_real (fun q => x (col 1 q)) (fun q => m (col 1 q)),
    step_real (fun q => x (col 2 q)) (fun q => m (col 2 q)),
    step_real (fun q => x (col 3 q)) (fun q => m (col 3 q))]

  have hle : ∀ k : Fin 4, Finset.univ.sup' ne1024 (fun q => x (col k q)) ≤ rM x := fun k =>
    Finset.sup'_le _ _ (fun q _ => Finset.le_sup' x (Finset.mem_univ (col k q)))
  have hm : max (max (max (Finset.univ.sup' ne1024 (fun q => x (col 0 q)))
        (Finset.univ.sup' ne1024 (fun q => x (col 1 q))))
        (Finset.univ.sup' ne1024 (fun q => x (col 2 q))))
        (Finset.univ.sup' ne1024 (fun q => x (col 3 q))) = rM x := by
    apply le_antisymm
    · exact max_le (max_le (max_le (hle 0) (hle 1)) (hle 2)) (hle 3)
    · refine Finset.sup'_le _ _ (fun j _ => ?_)
      obtain ⟨⟨k, q⟩, rfl⟩ := colEquiv.surjective j
      have hk : x (col k q) ≤ Finset.univ.sup' ne1024 (fun q => x (col k q)) :=
        Finset.le_sup' (fun q => x (col k q)) (Finset.mem_univ q)
      show x (col k q) ≤ _
      fin_cases k
      · exact le_trans hk (le_trans (le_max_left _ _) (le_trans (le_max_left _ _) (le_max_left _ _)))
      · exact le_trans hk (le_trans (le_max_right _ _) (le_trans (le_max_left _ _) (le_max_left _ _)))
      · exact le_trans hk (le_trans (le_max_right _ _) (le_max_left _ _))
      · exact le_trans hk (le_max_right _ _)
  rw [Acc.mk.injEq]
  refine ⟨congrArg _ hm, congrArg _ ?_, congrArg _ ?_, congrArg _ ?_⟩
  · rw [hm, rZ, sum_col, Fin.sum_univ_four]
    simp only [mul_add, rescale]
  · rw [rC, sum_col, Fin.sum_univ_four]
  · rw [rS, sum_col, Fin.sum_univ_four]

private theorem ker_row (x m : Fin 4096 → ℝ) :
    rowOut (fun j => ((x j : ℝ) : EReal)) (fun j => ((m j : ℝ) : EReal)) = ((rowR x m : ℝ) : EReal) := by
  unfold rowOut
  rw [after4_real]
  show (((rM x : ℝ) : EReal) + Ideal.log ((rZ x : ℝ) : EReal)) * ((rC m : ℝ) : EReal) - ((rS x m : ℝ) : EReal) = _
  rw [Ideal.log_coe, if_neg (not_le.mpr (rZ_pos x)), ← EReal.coe_add, ← EReal.coe_mul, ← EReal.coe_sub]
  rfl

private def maskR (lab : Fin 4096 → BitVec 32) (i j : Fin 4096) : ℝ := if lab i = lab j then 1 else 0

private theorem mask_coe (lab : Fin 4096 → BitVec 32) (i j : Fin 4096) :
    mask lab i j = ((maskR lab i j : ℝ) : EReal) := by
  unfold mask maskR
  by_cases h : lab i = lab j
  · rw [if_pos h, if_pos h, EReal.coe_one]
  · rw [if_neg h, if_neg h, EReal.coe_zero]

private theorem maskR_symm (lab : Fin 4096 → BitVec 32) (i j : Fin 4096) : maskR lab i j = maskR lab j i := by
  unfold maskR
  by_cases h : lab i = lab j
  · rw [if_pos h, if_pos h.symm]
  · rw [if_neg h, if_neg (fun h' => h h'.symm)]

/-- On real logits the blockwise loss is the reference's; the column side uses the mask's symmetry. -/
theorem kerLoss_eq_refLoss (L : Fin 4096 → Fin 4096 → ℝ) (lab : Fin 4096 → BitVec 32) :
    kerLoss (fun i j => ((L i j : ℝ) : EReal)) (fun i j => ((L j i : ℝ) : EReal)) (mask lab)
      = refLoss (fun i j => ((L i j : ℝ) : EReal)) (mask lab) := by
  have hK1 : ∀ i : Fin 4096, rowOut (fun j => ((L i j : ℝ) : EReal)) (mask lab i)
      = ((rowR (L i) (maskR lab i) : ℝ) : EReal) := by
    intro i
    have hmk : mask lab i = fun j => ((maskR lab i j : ℝ) : EReal) := funext (mask_coe lab i)
    rw [hmk]
    exact ker_row (L i) (maskR lab i)
  have hK2 : ∀ i : Fin 4096, rowOut (fun j => ((L j i : ℝ) : EReal)) (mask lab i)
      = ((rowR (fun j => L j i) (maskR lab i) : ℝ) : EReal) := by
    intro i
    have hmk : mask lab i = fun j => ((maskR lab i j : ℝ) : EReal) := funext (mask_coe lab i)
    rw [hmk]
    exact ker_row (fun j => L j i) (maskR lab i)
  have hR1 : ∀ i : Fin 4096, ∑ j : Fin 4096, mask lab i j * rowLSM (fun a b => ((L a b : ℝ) : EReal)) i j
      = ((-(rowR (L i) (maskR lab i)) : ℝ) : EReal) := by
    intro i
    rw [Finset.sum_congr rfl (fun j _ => by rw [mask_coe lab i j])]
    exact ref_row L (maskR lab i) i
  have hR2 : ∀ j : Fin 4096, ∑ i : Fin 4096, mask lab i j * rowLSM (fun a b => ((L b a : ℝ) : EReal)) j i
      = ((-(rowR (fun b => L b j) (maskR lab j)) : ℝ) : EReal) := by
    intro j
    rw [Finset.sum_congr rfl (fun i _ => by rw [mask_coe lab i j, maskR_symm lab i j])]
    exact ref_row (fun a b => L b a) (maskR lab j) j
  unfold kerLoss refLoss
  simp only [hK1, hK2, hR1, hR2]
  rw [coe_sum, coe_sum, coe_sum, coe_sum]
  rw [Ideal.div_coe (by norm_num : (4096 : ℝ) ≠ 0), Ideal.div_coe (by norm_num : (4096 : ℝ) ≠ 0),
    Ideal.div_coe (by norm_num : (4096 : ℝ) ≠ 0), Ideal.div_coe (by norm_num : (4096 : ℝ) ≠ 0),
    Ideal.div_coe (by norm_num : (2 : ℝ) ≠ 0), Ideal.div_coe (by norm_num : (2 : ℝ) ≠ 0)]
  simp only [← EReal.coe_mul, ← EReal.coe_add, ← EReal.coe_neg]
  refine congrArg Real.toEReal ?_
  simp only [Finset.sum_neg_distrib]
  ring

theorem epsN_pos : ∃ e : ℝ, 0 < e ∧ epsN = ((e : ℝ) : EReal) := by
  refine ⟨11258999 * (2 : ℝ) ^ (-50 : ℤ), by positivity, ?_⟩
  simp [epsN, Ideal.ofBits, Ideal.ieee, -EReal.coe_mul]

/-- Normalised real rows are real: the clamp keeps the divisor positive. -/
theorem nrm_real (X : Fin 4096 → Fin 768 → ℝ) :
    ∃ A : Fin 4096 → Fin 768 → ℝ, ∀ i d, nrm (fun i d => ((X i d : ℝ) : EReal)) i d = ((A i d : ℝ) : EReal) := by
  obtain ⟨e, he, hE⟩ := epsN_pos
  refine ⟨fun i d => X i d * (1 / max (Real.sqrt (∑ k : Fin 768, X i k * X i k)) e), fun i d => ?_⟩
  have hsum : (∑ k : Fin 768, ((X i k : ℝ) : EReal) * ((X i k : ℝ) : EReal))
      = ((∑ k : Fin 768, X i k * X i k : ℝ) : EReal) := by
    rw [← coe_sum]; exact Finset.sum_congr rfl (fun k _ => (EReal.coe_mul _ _).symm)
  have hnn : ¬ (∑ k : Fin 768, X i k * X i k) < 0 :=
    not_lt.mpr (Finset.sum_nonneg (fun k _ => mul_self_nonneg _))
  have hne : max (Real.sqrt (∑ k : Fin 768, X i k * X i k)) e ≠ 0 :=
    ne_of_gt (lt_of_lt_of_le he (le_max_right _ _))
  show Ideal.div ((X i d : ℝ) : EReal)
      (max (Ideal.sqrt (∑ k : Fin 768, ((X i k : ℝ) : EReal) * ((X i k : ℝ) : EReal))) epsN) = _
  rw [hsum, Ideal.sqrt_coe, if_neg hnn, hE, ← coe_max, Ideal.div_coe hne, ← EReal.coe_mul]

def logitR (A B : Fin 4096 → Fin 768 → ℝ) (i j : Fin 4096) : ℝ := (∑ d : Fin 768, A i d * B j d) * (134217728 / 9395241)

theorem dotRow_mul_invT (A B : Fin 4096 → Fin 768 → ℝ) (i j : Fin 4096) :
    dotRow (fun i d => ((A i d : ℝ) : EReal)) (fun i d => ((B i d : ℝ) : EReal)) i j * invT = ((logitR A B i j : ℝ) : EReal) := by
  rw [dotRow_coe, invT, ← EReal.coe_mul]; rfl

theorem dotRow_div_temp (A B : Fin 4096 → Fin 768 → ℝ) (i j : Fin 4096) :
    Ideal.div (dotRow (fun i d => ((A i d : ℝ) : EReal)) (fun i d => ((B i d : ℝ) : EReal)) i j) (Ideal.ofBits .f32 0x3D8F5C29#32)
      = ((logitR A B i j : ℝ) : EReal) := by
  rw [dotRow_coe, ofBits_temp, Ideal.div_coe (by norm_num), ← EReal.coe_mul, logitR]
  congr 2
  norm_num

theorem logitR_swap (A B : Fin 4096 → Fin 768 → ℝ) (i j : Fin 4096) : logitR B A i j = logitR A B j i := by
  unfold logitR
  congr 1
  exact Finset.sum_congr rfl (fun d _ => mul_comm _ _)

theorem ofBits_4096 : Ideal.ofBits .f32 0x45800000#32 = ((4096 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num

end Cert.Spec

end
-- ==== Proof.KI.StepVal.lean ====
import proofs.«145934_j43250320671200_1_alg».proof.Proof.KI.Step
import proofs.«145934_j43250320671200_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pt

open Cert.KernelIdeal Cert.KernelIdeal.Gen Idealize.ShloMosaic

open Idealize.ShloMosaic.ValueIdx

private theorem ofBits_neg_inf : Ideal.ofBits .f32 0xFF800000#32 = ⊥ := by
  simp [Ideal.ofBits, Ideal.ieee]

private theorem inv_temp : Named.named (F := Ideal) Cert.KernelIdeal.κ "inv_temperature" (φ := .f32) 0x41649249#32 = Cert.Spec.invT :=
  IdealRules.named_const.ideal_named_scalar _ _ _ _ rfl

private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem lift_row (h : S1024x1024.Reduces [1] S1024) (p q : Fin 1024) : h.lift (ix1 p) q = ix2 p q :=
  funext fun a => Fin.ext (by match a with | ⟨0, _⟩ => rfl | ⟨1, _⟩ => rfl)

private theorem rowSum_apply (v : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ q : Fin 1024, v (ix2 p q) :=
  (Ideal.multiReduction_add_single v 0x00000000#32 h hφ hacc (ix1 p)).trans
    (Finset.sum_congr rfl fun q _ => congrArg v (lift_row h p q))

private theorem rowMax_apply (v : FVec Ideal S1024x1024 .f32) (h : S1024x1024.Reduces [1] S1024) (hφ : FKind.Formats .f32)
    (hacc : (0xFF800000#32 : BitVec 32) = FKind.maximumf.neutral .f32 hφ) (p : Fin 1024) :
    multiReduction (F := Ideal) .maximumf [1] S1024 v 0xFF800000#32 h hφ hacc (ix1 p)
      = (Finset.univ : Finset (Fin 1024)).fold max ⊥ (fun q => v (ix2 p q)) := by
  refine (Ideal.multiReduction_maximumf_single v 0xFF800000#32 h hφ hacc (ix1 p)).trans ?_
  have e1 : (v ∘ h.lift (ix1 p)) = fun q : Fin 1024 => v (ix2 p q) := funext fun q => congrArg v (lift_row h p q)
  have e2 : FloatOps.ofBits (F := Ideal) .f32 0xFF800000#32 = (⊥ : EReal) := ofBits_neg_inf
  exact congrArg₂ (fun (b : EReal) (f : Fin 1024 → EReal) => (Finset.univ : Finset (Fin 1024)).fold max b f) e2 e1

private theorem pay1_eq (v : FVec Ideal S1024x1 .f32) : k0_pay1 v = v := shapeCast_self v _
private theorem pay4_eq (v : FVec Ideal S1024x1 .f32) : k0_pay4 v = v := shapeCast_self v _

private theorem lhs_k0_0 (i : S1024x1024.Idx) (q : dot_S1024x768_S1024x768_S1024x1024_1_1_0_0_n_n.contr.Idx) :
    (dot_S1024x768_S1024x768_S1024x1024_1_1_0_0_n_n.lhsIdx i q 0).val = (i 0).val := by
  unfold DotDims.lhsIdx
  rw [dif_neg (show ¬(0 : Fin S1024x768.rank) ∈ dot_S1024x768_S1024x768_S1024x1024_1_1_0_0_n_n.lhsBatch by decide), dif_pos (show (0 : Fin S1024x768.rank) ∈ dot_S1024x768_S1024x768_S1024x1024_1_1_0_0_n_n.lhsNonContracting by decide)]
  rfl
private theorem lhs_k0_1 (i : S1024x1024.Idx) (q : dot_S1024x768_S1024x768_S1024x1024_1_1_0_0_n_n.contr.Idx) :
    (dot_S1024x768_S1024x768_S1024x1024_1_1_0_0_n_n.lhsIdx i q 1).val = (q ⟨0, by decide⟩).val :=
  dot_S1024x768_S1024x768_S1024x1024_1_1_0_0_n_n.lhsIdx_val_of_single rfl i q
private theorem rhs_k0_0 (i : S1024x1024.Idx) (q : dot_S1024x768_S1024x768_S1024x1024_1_1_0_0_n_n.contr.Idx) :
    (dot_S1024x768_S1024x768_S1024x1024_1_1_0_0_n_n.rhsIdx i q 0).val = (i 1).val := by
  unfold DotDims.rhsIdx
  rw [dif_neg (show ¬(0 : Fin S1024x768.rank) ∈ dot_S1024x768_S1024x768_S1024x1024_1_1_0_0_n_n.rhsBatch by decide), dif_pos (show (0 : Fin S1024x768.rank) ∈ dot_S1024x768_S1024x768_S1024x1024_1_1_0_0_n_n.rhsNonContracting by decide)]
  rfl
private theorem rhs_k0_1 (i : S1024x1024.Idx) (q : dot_S1024x768_S1024x768_S1024x1024_1_1_0_0_n_n.contr.Idx) :
    (dot_S1024x768_S1024x768_S1024x1024_1_1_0_0_n_n.rhsIdx i q 1).val = (q ⟨0, by decide⟩).val :=
  dot_S1024x768_S1024x768_S1024x1024_1_1_0_0_n_n.rhsIdx_val_of_single rfl i q

/-- The product of a block of rows with a block of rows transposed, at `(p, q)`, is the dot product of row `p` with row `q`. -/
private theorem matmul_k0_apply (y0 y1 : FVec Ideal S1024x768 .bf16) (p q : Fin 1024) :
    FloatOps.matmul dot_S1024x768_S1024x768_S1024x1024_1_1_0_0_n_n none y0 y1 (constant (F := Ideal) S1024x1024 .f32 0x00000000#32) (ix2 p q)
      = ∑ k : Fin 768, y0 (ix2 p k) * y1 (ix2 q k) := by
  rw [Ideal.matmul_constant_zero_apply, ← Equiv.sum_comp (ValueIdx.contrEquiv1 dot_S1024x768_S1024x768_S1024x1024_1_1_0_0_n_n 768 rfl rfl).symm]
  refine Finset.sum_congr rfl fun k _ => ?_
  have hk := ValueIdx.contrEquiv1_symm_val dot_S1024x768_S1024x768_S1024x1024_1_1_0_0_n_n 768 rfl rfl k
  have el : dot_S1024x768_S1024x768_S1024x1024_1_1_0_0_n_n.lhsIdx (ix2 p q) ((ValueIdx.contrEquiv1 dot_S1024x768_S1024x768_S1024x1024_1_1_0_0_n_n 768 rfl rfl).symm k) = ix2 p k := funext fun a => Fin.ext (by
    match a with
    | ⟨0, _⟩ => exact lhs_k0_0 _ _
    | ⟨1, _⟩ => exact (lhs_k0_1 _ _).trans hk)
  have er : dot_S1024x768_S1024x768_S1024x1024_1_1_0_0_n_n.rhsIdx (ix2 p q) ((ValueIdx.contrEquiv1 dot_S1024x768_S1024x768_S1024x1024_1_1_0_0_n_n 768 rfl rfl).symm k) = ix2 q k := funext fun a => Fin.ext (by
    match a with
    | ⟨0, _⟩ => exact rhs_k0_0 _ _
    | ⟨1, _⟩ => exact (rhs_k0_1 _ _).trans hk)
  rw [el, er]

private theorem pay10_apply (x2 x3 : Vec Ideal S1024x768 .bf16) (p q : Fin 1024) :
    k0_pay10 x2 x3 (ix2 p q) = (∑ d : Fin 768, x2 (ix2 p d) * x3 (ix2 q d)) * Cert.Spec.invT := by
  show FloatOps.matmul dot_S1024x768_S1024x768_S1024x1024_1_1_0_0_n_n none (shapeCast S1024x768 x2 _) (shapeCast S1024x768 x3 _)
      (constant (F := Ideal) S1024x1024 .f32 0x00000000#32) (ix2 p q)
    * Named.named (F := Ideal) Cert.KernelIdeal.κ "inv_temperature" (φ := .f32) 0x41649249#32 = _
  rw [shapeCast_self, shapeCast_self, matmul_k0_apply, inv_temp]

private theorem eqWord (a b : BitVec 32) :
    ((((IntOp.cmpi .eq a b).setWidth 32).toInt : ℝ) : EReal) = if a = b then (1 : EReal) else 0 := by
  by_cases h : a = b
  · rw [if_pos h, h]
    simp [IntOp.cmpi]
  · rw [if_neg h]
    have hb : (a == b) = false := beq_false_of_ne h
    simp [IntOp.cmpi, hb]

private theorem pay11_apply (x4 : Vec Ideal S1024x1 .i32) (x5 : Vec Ideal S1x1024 .i32) (p q : Fin 1024) :
    k0_pay11 x4 x5 (ix2 p q) = if x4 (ix2 p 0) = x5 (ix2 0 q) then (1 : EReal) else 0 := by
  have e4 : broadcastTo S1024x1024 (shapeCast S1024x1 x4 shapeCasts_S1024x1_S1024x1) broadcasts_S1024x1_S1024x1024 (ix2 p q) = x4 (ix2 p 0) := by
    rw [shapeCast_self]; exact broadcastTo_a1_ab_apply x4 _ p q
  have e5 : broadcastTo S1024x1024 (shapeCast S1x1024 x5 shapeCasts_S1x1024_S1x1024) broadcasts_S1x1024_S1024x1024 (ix2 p q) = x5 (ix2 0 q) := by
    rw [shapeCast_self]; exact broadcastTo_1b_ab_apply x5 _ p q
  refine Eq.trans ?_ (eqWord (x4 (ix2 p 0)) (x5 (ix2 0 q)))
  show ((((IntOp.cmpi .eq (broadcastTo S1024x1024 (shapeCast S1024x1 x4 shapeCasts_S1024x1_S1024x1) broadcasts_S1024x1_S1024x1024 (ix2 p q))
      (broadcastTo S1024x1024 (shapeCast S1x1024 x5 shapeCasts_S1x1024_S1x1024) broadcasts_S1x1024_S1024x1024 (ix2 p q))).setWidth 32).toInt : ℝ) : EReal) = _
  rw [e4, e5]

private theorem exp_apply {s : Shape} (v : FVec Ideal s .f32) (i : s.Idx) : exp v i = Ideal.exp (v i) := rfl

private theorem mstep_apply (L : FVec Ideal S1024x1024 .f32) (xm : FVec Ideal S1024x1 .f32)
    (h : S1024x1024.Reduces [1] S1024) (hφ : FKind.Formats .f32)
    (hacc : (0xFF800000#32 : BitVec 32) = FKind.maximumf.neutral .f32 hφ) (hc : S1024.ShapeCasts S1024x1) (p : Fin 1024) :
    maximumf xm (shapeCast S1024x1 (multiReduction (F := Ideal) .maximumf [1] S1024 L 0xFF800000#32 h hφ hacc) hc) (ix2 p 0)
      = max (xm (ix2 p 0)) ((Finset.univ : Finset (Fin 1024)).fold max ⊥ (fun q => L (ix2 p q))) := by
  rw [maximumf_apply]
  exact congrArg (max (xm (ix2 p 0)))
    ((shapeCast_a_a1_apply (multiReduction (F := Ideal) .maximumf [1] S1024 L 0xFF800000#32 h hφ hacc) hc p 0).trans
      (rowMax_apply L h hφ hacc p))

private theorem lstep_apply (L : FVec Ideal S1024x1024 .f32) (M xm' xl : FVec Ideal S1024x1 .f32)
    (hb : S1024x1.Broadcasts S1024x1024) (h : S1024x1024.Reduces [1] S1024) (hφ : FKind.Formats .f32)
    (hacc : (0x00000000#32 : BitVec 32) = FKind.add.neutral .f32 hφ) (hc : S1024.ShapeCasts S1024x1) (p : Fin 1024) :
    addf (mulf (exp (subf xm' M)) xl)
        (shapeCast S1024x1 (multiReduction (F := Ideal) .add [1] S1024 (exp (subf L (broadcastTo S1024x1024 M hb))) 0x00000000#32 h hφ hacc) hc)
        (ix2 p 0)
      = Ideal.exp (xm' (ix2 p 0) - M (ix2 p 0)) * xl (ix2 p 0) + ∑ q : Fin 1024, Ideal.exp (L (ix2 p q) - M (ix2 p 0)) := by
  rw [addf_apply, mulf_apply, exp_apply, subf_apply]
  refine congrArg (Ideal.exp (xm' (ix2 p 0) - M (ix2 p 0)) * xl (ix2 p 0) + ·) ?_
  refine (shapeCast_a_a1_apply (multiReduction (F := Ideal) .add [1] S1024 (exp (subf L (broadcastTo S1024x1024 M hb))) 0x00000000#32 h hφ hacc) hc p 0).trans ?_
  refine (rowSum_apply (exp (subf L (broadcastTo S1024x1024 M hb))) h hφ hacc p).trans ?_
  refine Finset.sum_congr rfl fun q _ => ?_
  rw [exp_apply, subf_apply, broadcastTo_a1_ab_apply]

private theorem cstep_apply (V : FVec Ideal S1024x1024 .f32) (xc : FVec Ideal S1024x1 .f32)
    (h : S1024x1024.Reduces [1] S1024) (hφ : FKind.Formats .f32)
    (hacc : (0x00000000#32 : BitVec 32) = FKind.add.neutral .f32 hφ) (hc : S1024.ShapeCasts S1024x1) (p : Fin 1024) :
    addf xc (shapeCast S1024x1 (multiReduction (F := Ideal) .add [1] S1024 V 0x00000000#32 h hφ hacc) hc) (ix2 p 0)
      = xc (ix2 p 0) + ∑ q : Fin 1024, V (ix2 p q) := by
  rw [addf_apply]
  exact congrArg (xc (ix2 p 0) + ·)
    ((shapeCast_a_a1_apply (multiReduction (F := Ideal) .add [1] S1024 V 0x00000000#32 h hφ hacc) hc p 0).trans
      (rowSum_apply V h hφ hacc p))

private theorem pay12_apply (x2 x3 : Vec Ideal S1024x768 .bf16) (xm : Vec Ideal S1024x1 .f32) (p : Fin 1024) :
    k0_pay12 x2 x3 xm (ix2 p 0)
      = max (xm (ix2 p 0)) ((Finset.univ : Finset (Fin 1024)).fold max ⊥ (fun q => k0_pay10 x2 x3 (ix2 p q))) :=
  mstep_apply (k0_pay10 x2 x3) xm reduces_S1024x1024_S1024 (.inl rfl) rfl shapeCasts_S1024_S1024x1 p

private theorem pay13_apply (x2 x3 : Vec Ideal S1024x768 .bf16) (xm xm' xl : Vec Ideal S1024x1 .f32) (p : Fin 1024) :
    k0_pay13 x2 x3 xm xm' xl (ix2 p 0)
      = Ideal.exp (xm' (ix2 p 0) - k0_pay12 x2 x3 xm (ix2 p 0)) * xl (ix2 p 0)
        + ∑ q : Fin 1024, Ideal.exp (k0_pay10 x2 x3 (ix2 p q) - k0_pay12 x2 x3 xm (ix2 p 0)) :=
  lstep_apply (k0_pay10 x2 x3) (k0_pay12 x2 x3 xm) xm' xl broadcasts_S1024x1_S1024x1024 reduces_S1024x1024_S1024 (.inl rfl) rfl
    shapeCasts_S1024_S1024x1 p

private theorem pay2_apply (v18 : FVec Ideal S1024x1024 .f32) (xc : Vec Ideal S1024x1 .f32) (p : Fin 1024) :
    k0_pay2 v18 xc (ix2 p 0) = xc (ix2 p 0) + ∑ q : Fin 1024, v18 (ix2 p q) := by
  show shapeCast S1024x1 (addf xc (shapeCast S1024x1 (multiReduction (F := Ideal) .add [1] S1024 v18 0x00000000#32
      reduces_S1024x1024_S1024 (.inl rfl) rfl) shapeCasts_S1024_S1024x1)) shapeCasts_S1024x1_S1024x1 (ix2 p 0) = _
  rw [shapeCast_self]
  exact cstep_apply v18 xc reduces_S1024x1024_S1024 (.inl rfl) rfl shapeCasts_S1024_S1024x1 p

private theorem pay3_apply (v9 v18 : FVec Ideal S1024x1024 .f32) (xs : Vec Ideal S1024x1 .f32) (p : Fin 1024) :
    k0_pay3 v9 v18 xs (ix2 p 0) = xs (ix2 p 0) + ∑ q : Fin 1024, v18 (ix2 p q) * v9 (ix2 p q) := by
  show shapeCast S1024x1 (addf xs (shapeCast S1024x1 (multiReduction (F := Ideal) .add [1] S1024 (mulf v18 v9) 0x00000000#32
      reduces_S1024x1024_S1024 (.inl rfl) rfl) shapeCasts_S1024_S1024x1)) shapeCasts_S1024x1_S1024x1 (ix2 p 0) = _
  rw [shapeCast_self]
  exact cstep_apply (mulf v18 v9) xs reduces_S1024x1024_S1024 (.inl rfl) rfl shapeCasts_S1024_S1024x1 p

private theorem spec_step_mk (X μ : Fin 1024 → EReal) (a b c d : EReal) :
    Cert.Spec.Acc.step X μ ⟨a, b, c, d⟩
      = ⟨max a ((Finset.univ : Finset (Fin 1024)).fold max ⊥ X),
         Ideal.exp (a - max a ((Finset.univ : Finset (Fin 1024)).fold max ⊥ X)) * b
           + ∑ q : Fin 1024, Ideal.exp (X q - max a ((Finset.univ : Finset (Fin 1024)).fold max ⊥ X)),
         c + ∑ q : Fin 1024, μ q,
         d + ∑ q : Fin 1024, μ q * X q⟩ := rfl

def accOf (s : St Ideal) (p : Fin 1024) : Cert.Spec.Acc := ⟨s.1 (ValueIdx.ix2 p 0), s.2.1 (ValueIdx.ix2 p 0), s.2.2.1 (ValueIdx.ix2 p 0), s.2.2.2 (ValueIdx.ix2 p 0)⟩

/-- One block's update of row `p`'s four statistics is the specification's step on that row's scaled dot products and label mask. -/
theorem step_row (x2 x3 : Vec Ideal S1024x768 .bf16) (x4 : Vec Ideal S1024x1 .i32) (x5 : Vec Ideal S1x1024 .i32) (s : St Ideal) (p : Fin 1024) :
    accOf (step x2 x3 x4 x5 s) p = Cert.Spec.Acc.step (fun q : Fin 1024 => (∑ d : Fin 768, x2 (ValueIdx.ix2 p d) * x3 (ValueIdx.ix2 q d)) * Cert.Spec.invT) (fun q : Fin 1024 => if x4 (ValueIdx.ix2 p 0) = x5 (ValueIdx.ix2 0 q) then (1 : EReal) else 0) (accOf s p) := by
  have hm : stepM x2 x3 s.1 (ix2 p 0)
      = max (s.1 (ix2 p 0)) ((Finset.univ : Finset (Fin 1024)).fold max ⊥
          (fun q => (∑ d : Fin 768, x2 (ix2 p d) * x3 (ix2 q d)) * Cert.Spec.invT)) := by
    unfold stepM
    rw [pay4_eq, pay12_apply]
    simp only [pay10_apply]
  have hl : stepL x2 x3 s.1 s.2.1 (ix2 p 0)
      = Ideal.exp (s.1 (ix2 p 0) - max (s.1 (ix2 p 0)) ((Finset.univ : Finset (Fin 1024)).fold max ⊥
          (fun q => (∑ d : Fin 768, x2 (ix2 p d) * x3 (ix2 q d)) * Cert.Spec.invT))) * s.2.1 (ix2 p 0)
        + ∑ q : Fin 1024, Ideal.exp ((∑ d : Fin 768, x2 (ix2 p d) * x3 (ix2 q d)) * Cert.Spec.invT
            - max (s.1 (ix2 p 0)) ((Finset.univ : Finset (Fin 1024)).fold max ⊥
                (fun q => (∑ d : Fin 768, x2 (ix2 p d) * x3 (ix2 q d)) * Cert.Spec.invT))) := by
    unfold stepL
    rw [pay1_eq, pay13_apply, pay12_apply]
    simp only [pay10_apply]
  have hc : stepC x4 x5 s.2.2.1 (ix2 p 0)
      = s.2.2.1 (ix2 p 0) + ∑ q : Fin 1024, (if x4 (ix2 p 0) = x5 (ix2 0 q) then (1 : EReal) else 0) := by
    unfold stepC
    rw [pay2_apply]
    simp only [pay11_apply]
  have hs : stepS x2 x3 x4 x5 s.2.2.2 (ix2 p 0)
      = s.2.2.2 (ix2 p 0) + ∑ q : Fin 1024, (if x4 (ix2 p 0) = x5 (ix2 0 q) then (1 : EReal) else 0)
          * ((∑ d : Fin 768, x2 (ix2 p d) * x3 (ix2 q d)) * Cert.Spec.invT) := by
    unfold stepS
    rw [pay3_apply]
    simp only [pay10_apply, pay11_apply]
  show Cert.Spec.Acc.mk (stepM x2 x3 s.1 (ix2 p 0)) (stepL x2 x3 s.1 s.2.1 (ix2 p 0)) (stepC x4 x5 s.2.2.1 (ix2 p 0))
      (stepS x2 x3 x4 x5 s.2.2.2 (ix2 p 0))
    = Cert.Spec.Acc.step _ _ (Cert.Spec.Acc.mk (s.1 (ix2 p 0)) (s.2.1 (ix2 p 0)) (s.2.2.1 (ix2 p 0)) (s.2.2.2 (ix2 p 0)))
  rw [spec_step_mk, hm, hl, hc, hs]

/-- The values a first column starts from are the specification's initial state. -/
theorem reset_row (p : Fin 1024) : accOf (reset (F := Ideal)) p = Cert.Spec.Acc.init := by
  have h6 : (k0_pay6 (F := Ideal)) (ix2 p 0) = ⊥ := by
    show shapeCast S1024x1 (broadcast S1024x1 (Ideal.ofBits .f32 0xFF800000#32)) _ (ix2 p 0) = ⊥
    rw [shapeCast_self]; exact ofBits_neg_inf
  have h7 : (k0_pay7 (F := Ideal)) (ix2 p 0) = 0 := by
    show shapeCast S1024x1 (broadcast S1024x1 (Ideal.ofBits .f32 0x00000000#32)) _ (ix2 p 0) = 0
    rw [shapeCast_self]; exact Ideal.ofBits_zero_f32
  have h8 : (k0_pay8 (F := Ideal)) (ix2 p 0) = 0 := by
    show shapeCast S1024x1 (broadcast S1024x1 (Ideal.ofBits .f32 0x00000000#32)) _ (ix2 p 0) = 0
    rw [shapeCast_self]; exact Ideal.ofBits_zero_f32
  have h9 : (k0_pay9 (F := Ideal)) (ix2 p 0) = 0 := by
    show shapeCast S1024x1 (broadcast S1024x1 (Ideal.ofBits .f32 0x00000000#32)) _ (ix2 p 0) = 0
    rw [shapeCast_self]; exact Ideal.ofBits_zero_f32
  show Cert.Spec.Acc.mk ((k0_pay6 (F := Ideal)) (ix2 p 0)) ((k0_pay7 (F := Ideal)) (ix2 p 0)) ((k0_pay8 (F := Ideal)) (ix2 p 0)) ((k0_pay9 (F := Ideal)) (ix2 p 0)) = _
  rw [h6, h7, h8, h9]
  rfl

theorem lossOf_row (s : St Ideal) (p : Fin 1024) : lossOf s (ValueIdx.ix2 p 0) = (accOf s p).out := by
  rfl

end Cert.KernelIdeal.Pt

end
-- ==== Proof.KI.Value0.lean ====
import proofs.«145934_j43250320671200_1_alg».proof.Proof.KI.Body0
import proofs.«145934_j43250320671200_1_alg».proof.Proof.KI.StepVal
import proofs.«145934_j43250320671200_1_alg».proof.Proof.Spec
import Idealize.ShloMosaic.Lib.Pipeline.Value
import Idealize.ShloMosaic.Lib.ValueIdx

noncomputable section

namespace Cert.KernelIdeal.R0

open Cert.KernelIdeal Cert.KernelIdeal.Gen Idealize.ShloMosaic Idealize.ShloMosaic.TcCoe
open Idealize.SL.Sem
open Idealize.ShloMosaic.Pipeline (Dat)
open Cert.KernelIdeal.Pt

variable (V : (c : Dev nD) → (b : Ref sig .tc) → Buf (Elt Ideal) ((c : Thread nD τ).loc b))

abbrev qRows (c : Dev nD) : Fin 4096 → Fin 768 → EReal := fun i d => (V c (Pipeline.arrRef spec0 0)) (ValueIdx.ix2 i d)
abbrev kRows (c : Dev nD) : Fin 4096 → Fin 768 → EReal := fun j d => (V c (Pipeline.arrRef spec0 1)) (ValueIdx.ix2 j d)
abbrev qLab (c : Dev nD) : Fin 4096 → BitVec 32 := fun i => (V c (Pipeline.arrRef spec0 2)) (ValueIdx.ix2 i 0)
abbrev kLab (c : Dev nD) : Fin 4096 → BitVec 32 := fun j => (V c (Pipeline.arrRef spec0 3)) (ValueIdx.ix2 0 j)

abbrev rowX (c : Dev nD) (r : Fin 4096) : Fin 4096 → EReal :=
  fun j => Cert.Spec.dotRow (qRows V c) (kRows V c) r j * Cert.Spec.invT
abbrev rowM (c : Dev nD) (r : Fin 4096) : Fin 4096 → EReal :=
  fun j => if qLab V c r = kLab V c j then (1 : EReal) else 0

abbrev qblk (c : Dev nD) (t : Fin cfg0.N) : Vec Ideal S1024x768 .bf16 := iblk V c 0 t
abbrev kblk (c : Dev nD) (t : Fin cfg0.N) : Vec Ideal S1024x768 .bf16 := iblk V c 1 t
abbrev qlblk (c : Dev nD) (t : Fin cfg0.N) : Vec Ideal S1024x1 .i32 := iblk V c 2 t
abbrev klblk (c : Dev nD) (t : Fin cfg0.N) : Vec Ideal S1x1024 .i32 := iblk V c 3 t

/-- At point `t` of the 4 x 4 grid the row-block index is `t / 4` and the column-block index `t % 4`. -/
theorem blk_index : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

theorem qblk_apply (c : Dev nD) (t : Fin cfg0.N) (p : Fin 1024) (d : Fin 768) (i : Fin 4096)
    (hi : i.val = 1024 * (t.val / 4) + p.val) :
    qblk V c t (ValueIdx.ix2 p d) = qRows V c i d := by
  obtain ⟨e0, e1, -⟩ := blk_index t
  unfold qblk iblk
  rw [View.read_apply]
  show V c (Pipeline.arrRef spec0 0) _ = V c (Pipeline.arrRef spec0 0) _
  congr 1
  funext a
  apply Fin.ext
  match a with
  | ⟨0, _⟩ => show win0_0.index t (0 : Fin 2) * 1024 + 1 * p.val = i.val; rw [e0, hi]; omega
  | ⟨1, _⟩ => show win0_0.index t (1 : Fin 2) * 768 + 1 * d.val = d.val; rw [e1]; omega

theorem kblk_apply (c : Dev nD) (t : Fin cfg0.N) (q : Fin 1024) (d : Fin 768) (i : Fin 4096)
    (hi : i.val = 1024 * (t.val % 4) + q.val) :
    kblk V c t (ValueIdx.ix2 q d) = kRows V c i d := by
  obtain ⟨-, -, e0, e1, -⟩ := blk_index t
  unfold kblk iblk
  rw [View.read_apply]
  show V c (Pipeline.arrRef spec0 1) _ = V c (Pipeline.arrRef spec0 1) _
  congr 1
  funext a
  apply Fin.ext
  match a with
  | ⟨0, _⟩ => show win0_1.index t (0 : Fin 2) * 1024 + 1 * q.val = i.val; rw [e0, hi]; omega
  | ⟨1, _⟩ => show win0_1.index t (1 : Fin 2) * 768 + 1 * d.val = d.val; rw [e1]; omega

theorem qlblk_apply (c : Dev nD) (t : Fin cfg0.N) (p : Fin 1024) (i : Fin 4096)
    (hi : i.val = 1024 * (t.val / 4) + p.val) :
    qlblk V c t (ValueIdx.ix2 p 0) = qLab V c i := by
  obtain ⟨-, -, -, -, e0, e1, -⟩ := blk_index t
  unfold qlblk iblk
  rw [View.read_apply]
  show V c (Pipeline.arrRef spec0 2) _ = V c (Pipeline.arrRef spec0 2) _
  congr 1
  funext a
  apply Fin.ext
  match a with
  | ⟨0, _⟩ => show win0_2.index t (0 : Fin 2) * 1024 + 1 * p.val = i.val; rw [e0, hi]; omega
  | ⟨1, _⟩ => show win0_2.index t (1 : Fin 2) * 1 + 1 * 0 = 0; rw [e1]

theorem klblk_apply (c : Dev nD) (t : Fin cfg0.N) (q : Fin 1024) (i : Fin 4096)
    (hi : i.val = 1024 * (t.val % 4) + q.val) :
    klblk V c t (ValueIdx.ix2 0 q) = kLab V c i := by
  obtain ⟨-, -, -, -, -, -, e0, e1, -⟩ := blk_index t
  unfold klblk iblk
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * q.val = i.val; rw [e1, hi]; omega

theorem logits_blk (c : Dev nD) (t : Fin cfg0.N) (p : Fin 1024) (r : Fin 4096)
    (hr : r.val = 1024 * (t.val / 4) + p.val) (k : Fin 4) (hk : k.val = t.val % 4) :
    (fun q : Fin 1024 => (∑ d : Fin 768, qblk V c t (ValueIdx.ix2 p d) * kblk V c t (ValueIdx.ix2 q d)) * Cert.Spec.invT)
      = fun q => rowX V c r (Cert.Spec.col k q) := by
  funext q
  show _ = (∑ d : Fin 768, qRows V c r d * kRows V c (Cert.Spec.col k q) d) * Cert.Spec.invT
  refine congrArg (· * Cert.Spec.invT) (Finset.sum_congr rfl fun d _ => ?_)
  rw [qblk_apply V c t p d r hr, kblk_apply V c t q d (Cert.Spec.col k q) (by show 1024 * k.val + q.val = _; rw [hk])]

theorem mask_blk (c : Dev nD) (t : Fin cfg0.N) (p : Fin 1024) (r : Fin 4096)
    (hr : r.val = 1024 * (t.val / 4) + p.val) (k : Fin 4) (hk : k.val = t.val % 4) :
    (fun q : Fin 1024 => if qlblk V c t (ValueIdx.ix2 p 0) = klblk V c t (ValueIdx.ix2 0 q) then (1 : EReal) else 0)
      = fun q => rowM V c r (Cert.Spec.col k q) := by
  funext q
  rw [qlblk_apply V c t p r hr, klblk_apply V c t q (Cert.Spec.col k q) (by show 1024 * k.val + q.val = _; rw [hk])]

theorem step_blk (c : Dev nD) (t : Fin cfg0.N) (s : St Ideal) (p : Fin 1024) (r : Fin 4096)
    (hr : r.val = 1024 * (t.val / 4) + p.val) (k : Fin 4) (hk : k.val = t.val % 4) :
    accOf (step (iblk V c 0 t) (iblk V c 1 t) (iblk V c 2 t) (iblk V c 3 t) s) p
      = Cert.Spec.Acc.step (fun q => rowX V c r (Cert.Spec.col k q)) (fun q => rowM V c r (Cert.Spec.col k q)) (accOf s p) :=
  (step_row (qblk V c t) (kblk V c t) (qlblk V c t) (klblk V c t) s p).trans
    (congrArg₂ (fun x μ => Cert.Spec.Acc.step x μ (accOf s p)) (logits_blk V c t p r hr k hk) (mask_blk V c t p r hr k hk))

/-- After column block `j` of a row block, row `p` of the running statistics is the specification's state after `j + 1` blocks of row `1024 (n / 4) + p`. -/
theorem acc_row (c : Dev nD) : ∀ (n : ℕ) (hn : n < cfg0.N) (j : ℕ) (hj4 : j + 1 ≤ 4) (hj : n % 4 = j) (p : Fin 1024) (r : Fin 4096)
    (hr : r.val = 1024 * (n / 4) + p.val),
    accOf (accAt V c n hn) p = Cert.Spec.Acc.after (rowX V c r) (rowM V c r) (j + 1) hj4
  | 0, hn, j, hj4, hj, p, r, hr => by
    obtain rfl : j = 0 := by omega
    rw [accAt_first V c ⟨0, hn⟩ rfl, step_blk V c ⟨0, hn⟩ reset p r hr ⟨0, by omega⟩ rfl, reset_row]
    rfl
  | n + 1, hn, j, hj4, hj, p, r, hr => by
    by_cases h0 : (n + 1) % 4 = 0
    · obtain rfl : j = 0 := by omega
      rw [accAt_first V c ⟨n + 1, hn⟩ h0, step_blk V c ⟨n + 1, hn⟩ reset p r hr ⟨0, by omega⟩ h0.symm, reset_row]
      rfl
    · obtain ⟨j', rfl⟩ : ∃ j', j = j' + 1 := ⟨j - 1, by omega⟩
      rw [accAt_next V c ⟨n + 1, hn⟩ h0, step_blk V c ⟨n + 1, hn⟩ _ p r hr ⟨j' + 1, by omega⟩ hj.symm]
      show Cert.Spec.Acc.step _ _ (accOf (accAt V c n _) p) = _
      rw [acc_row c n (Nat.lt_of_succ_lt hn) j' (by omega) (by omega) p r (by omega)]
      rfl

theorem out_last (c : Dev nD) (t : Fin cfg0.N) (h3 : t.val % 4 = 3) (p : Fin 1024) (r : Fin 4096)
    (hr : r.val = 1024 * (t.val / 4) + p.val) :
    outAt V c t.val t.isLt (ValueIdx.ix2 p 0) = Cert.Spec.rowOut (rowX V c r) (rowM V c r) := by
  unfold outAt
  rw [lossOf_row, acc_row V c t.val t.isLt 3 (by omega) h3 p r hr]
  rfl

abbrev lossArr (c : Dev nD) : S4096x1.Idx → Elt Ideal .f32 :=
  fun i => Cert.Spec.rowOut (rowX V c (i 0)) (rowM V c (i 0))

theorem flushed_eq (c : Dev nD) (t : Fin cfg0.N) (hf : (cfg0.win 4).flush t = true) :
    (dat0 V c).flushed 4 t = ((cfg0.win 4).blk t).view.read (Elt Ideal) (lossArr V c) := by
  have h3 : t.val % 4 = 3 := (flush0_4 t).mp hf
  have ht : t.val < 16 := lt_of_lt_of_eq t.isLt (N_0 : cfg0.N = 16)
  obtain ⟨-, -, -, -, -, -, -, -, e0, e1⟩ := blk_index t
  show (cfg0.win 4).cut (grid0.coords t) ((dat0 V c).after 4 t) = _
  rw [after0_4]
  funext y
  obtain ⟨p, z, rfl⟩ : ∃ (p : Fin 1024) (z : Fin 1), y = ValueIdx.ix2 p z := ⟨y 0, y 1, ValueIdx.eq_ix2 (n0 := 1024) (n1 := 1) y⟩
  obtain rfl : z = 0 := Subsingleton.elim _ _
  show outAt V c t.val t.isLt (ValueIdx.ix2 p 0) = lossArr V c (((cfg0.win 4).blk t).view.emb (ValueIdx.ix2 p 0))
  have hemb : ((cfg0.win 4).blk t).view.emb (ValueIdx.ix2 p 0)
      = ValueIdx.ix2 (⟨1024 * (t.val / 4) + p.val, by omega⟩ : Fin 4096) (0 : Fin 1) := by
    funext a
    apply Fin.ext
    match a with
    | ⟨0, _⟩ => show win0_4.index t (0 : Fin 2) * 1024 + 1 * p.val = 1024 * (t.val / 4) + p.val; rw [e0]; omega
    | ⟨1, _⟩ => show win0_4.index t (1 : Fin 2) * 1 + 1 * 0 = 0; rw [e1]
  rw [hemb]
  exact out_last V c t h3 p _ rfl

theorem mem_blk (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v14).slice (win0_4.rect t)).set ↔ _
  rw [View.set_slice_whole, Rect.mem_set_unit]
  exact Iff.rfl

/-- Row `r` lies in the block of the last-column point of its row block. -/
theorem cover (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 16 := N_0
  have hlt : 4 * ((i 0).val / 1024) + 3 < cfg0.N := by rw [hN]; omega
  obtain ⟨-, -, -, -, -, -, -, -, e0, e1⟩ := blk_index ⟨4 * ((i 0).val / 1024) + 3, hlt⟩
  refine ⟨⟨4 * ((i 0).val / 1024) + 3, hlt⟩, (flush0_4 _).mpr (by show (4 * ((i 0).val / 1024) + 3) % 4 = 3; omega), ?_⟩
  rw [mem_blk]
  intro a
  match a with
  | ⟨0, _⟩ =>
    show win0_4.index ⟨4 * ((i 0).val / 1024) + 3, hlt⟩ (0 : Fin 2) * 1024 ≤ (i 0).val ∧ (i 0).val < win0_4.index ⟨4 * ((i 0).val / 1024) + 3, hlt⟩ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win0_4.index ⟨4 * ((i 0).val / 1024) + 3, hlt⟩ (1 : Fin 2) * 1 ≤ (i 1).val ∧ (i 1).val < win0_4.index ⟨4 * ((i 0).val / 1024) + 3, hlt⟩ (1 : Fin 2) * 1 + 1
    rw [e1]
    omega

/-- So the array the launch leaves holds, row by row, the specification's statistic of that row's logits and mask. -/
theorem out_arr (c : Dev nD) : (dat0 V c).arrAt 4 cfg0.N = lossArr V c :=
  (dat0 V c).arrAt_eq_of_cover 4 (lossArr V c) (flushed_eq V c) cover

theorem out_row (c : Dev nD) (r : Fin 4096) :
    (dat0 V c).arrAt 4 cfg0.N (ValueIdx.ix2 r 0)
      = Cert.Spec.rowOut (fun j => Cert.Spec.dotRow (qRows V c) (kRows V c) r j * Cert.Spec.invT) (fun j => if qLab V c r = kLab V c j then (1 : EReal) else 0) := by
  rw [out_arr V c]

end Cert.KernelIdeal.R0

end
-- ==== Proof.KI.Value1.lean ====
import proofs.«145934_j43250320671200_1_alg».proof.Proof.KI.Body1
import proofs.«145934_j43250320671200_1_alg».proof.Proof.KI.StepVal
import proofs.«145934_j43250320671200_1_alg».proof.Proof.Spec
import Idealize.ShloMosaic.Lib.Pipeline.Value
import Idealize.ShloMosaic.Lib.ValueIdx

noncomputable section

namespace Cert.KernelIdeal.R1

open Cert.KernelIdeal Cert.KernelIdeal.Gen Idealize.ShloMosaic Idealize.ShloMosaic.TcCoe
open Idealize.SL.Sem
open Idealize.ShloMosaic.Pipeline (Dat)
open Cert.KernelIdeal.Pt

variable (V : (c : Dev nD) → (b : Ref sig .tc) → Buf (Elt Ideal) ((c : Thread nD τ).loc b))

abbrev qRows (c : Dev nD) : Fin 4096 → Fin 768 → EReal := fun i d => (V c (Pipeline.arrRef spec1 0)) (ValueIdx.ix2 i d)
abbrev kRows (c : Dev nD) : Fin 4096 → Fin 768 → EReal := fun j d => (V c (Pipeline.arrRef spec1 1)) (ValueIdx.ix2 j d)
abbrev qLab (c : Dev nD) : Fin 4096 → BitVec 32 := fun i => (V c (Pipeline.arrRef spec1 2)) (ValueIdx.ix2 i 0)
abbrev kLab (c : Dev nD) : Fin 4096 → BitVec 32 := fun j => (V c (Pipeline.arrRef spec1 3)) (ValueIdx.ix2 0 j)

abbrev rowX (c : Dev nD) (r : Fin 4096) : Fin 4096 → EReal :=
  fun j => Cert.Spec.dotRow (qRows V c) (kRows V c) r j * Cert.Spec.invT
abbrev rowM (c : Dev nD) (r : Fin 4096) : Fin 4096 → EReal :=
  fun j => if qLab V c r = kLab V c j then (1 : EReal) else 0

abbrev qblk (c : Dev nD) (t : Fin cfg1.N) : Vec Ideal S1024x768 .bf16 := iblk V c 0 t
abbrev kblk (c : Dev nD) (t : Fin cfg1.N) : Vec Ideal S1024x768 .bf16 := iblk V c 1 t
abbrev qlblk (c : Dev nD) (t : Fin cfg1.N) : Vec Ideal S1024x1 .i32 := iblk V c 2 t
abbrev klblk (c : Dev nD) (t : Fin cfg1.N) : Vec Ideal S1x1024 .i32 := iblk V c 3 t

/-- At point `t` of the 4 x 4 grid the row-block index is `t / 4` and the column-block index `t % 4`. -/
theorem blk_index : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = t.val % 4
    ∧ win1_4.index t (0 : Fin 2) = t.val / 4 ∧ win1_4.index t (1 : Fin 2) = 0 :=
  (by decide +kernel : ∀ t : Fin grid1.N, _)

theorem qblk_apply (c : Dev nD) (t : Fin cfg1.N) (p : Fin 1024) (d : Fin 768) (i : Fin 4096)
    (hi : i.val = 1024 * (t.val / 4) + p.val) :
    qblk V c t (ValueIdx.ix2 p d) = qRows V c i d := by
  obtain ⟨e0, e1, -⟩ := blk_index t
  unfold qblk iblk
  rw [View.read_apply]
  show V c (Pipeline.arrRef spec1 0) _ = V c (Pipeline.arrRef spec1 0) _
  congr 1
  funext a
  apply Fin.ext
  match a with
  | ⟨0, _⟩ => show win1_0.index t (0 : Fin 2) * 1024 + 1 * p.val = i.val; rw [e0, hi]; omega
  | ⟨1, _⟩ => show win1_0.index t (1 : Fin 2) * 768 + 1 * d.val = d.val; rw [e1]; omega

theorem kblk_apply (c : Dev nD) (t : Fin cfg1.N) (q : Fin 1024) (d : Fin 768) (i : Fin 4096)
    (hi : i.val = 1024 * (t.val % 4) + q.val) :
    kblk V c t (ValueIdx.ix2 q d) = kRows V c i d := by
  obtain ⟨-, -, e0, e1, -⟩ := blk_index t
  unfold kblk iblk
  rw [View.read_apply]
  show V c (Pipeline.arrRef spec1 1) _ = V c (Pipeline.arrRef spec1 1) _
  congr 1
  funext a
  apply Fin.ext
  match a with
  | ⟨0, _⟩ => show win1_1.index t (0 : Fin 2) * 1024 + 1 * q.val = i.val; rw [e0, hi]; omega
  | ⟨1, _⟩ => show win1_1.index t (1 : Fin 2) * 768 + 1 * d.val = d.val; rw [e1]; omega

theorem qlblk_apply (c : Dev nD) (t : Fin cfg1.N) (p : Fin 1024) (i : Fin 4096)
    (hi : i.val = 1024 * (t.val / 4) + p.val) :
    qlblk V c t (ValueIdx.ix2 p 0) = qLab V c i := by
  obtain ⟨-, -, -, -, e0, e1, -⟩ := blk_index t
  unfold qlblk iblk
  rw [View.read_apply]
  show V c (Pipeline.arrRef spec1 2) _ = V c (Pipeline.arrRef spec1 2) _
  congr 1
  funext a
  apply Fin.ext
  match a with
  | ⟨0, _⟩ => show win1_2.index t (0 : Fin 2) * 1024 + 1 * p.val = i.val; rw [e0, hi]; omega
  | ⟨1, _⟩ => show win1_2.index t (1 : Fin 2) * 1 + 1 * 0 = 0; rw [e1]

theorem klblk_apply (c : Dev nD) (t : Fin cfg1.N) (q : Fin 1024) (i : Fin 4096)
    (hi : i.val = 1024 * (t.val % 4) + q.val) :
    klblk V c t (ValueIdx.ix2 0 q) = kLab V c i := by
  obtain ⟨-, -, -, -, -, -, e0, e1, -⟩ := blk_index t
  unfold klblk iblk
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * 0 = 0; rw [e0]
  | ⟨1, _⟩ => show win1_3.index t (1 : Fin 2) * 1024 + 1 * q.val = i.val; rw [e1, hi]; omega

theorem logits_blk (c : Dev nD) (t : Fin cfg1.N) (p : Fin 1024) (r : Fin 4096)
    (hr : r.val = 1024 * (t.val / 4) + p.val) (k : Fin 4) (hk : k.val = t.val % 4) :
    (fun q : Fin 1024 => (∑ d : Fin 768, qblk V c t (ValueIdx.ix2 p d) * kblk V c t (ValueIdx.ix2 q d)) * Cert.Spec.invT)
      = fun q => rowX V c r (Cert.Spec.col k q) := by
  funext q
  show _ = (∑ d : Fin 768, qRows V c r d * kRows V c (Cert.Spec.col k q) d) * Cert.Spec.invT
  refine congrArg (· * Cert.Spec.invT) (Finset.sum_congr rfl fun d _ => ?_)
  rw [qblk_apply V c t p d r hr, kblk_apply V c t q d (Cert.Spec.col k q) (by show 1024 * k.val + q.val = _; rw [hk])]

theorem mask_blk (c : Dev nD) (t : Fin cfg1.N) (p : Fin 1024) (r : Fin 4096)
    (hr : r.val = 1024 * (t.val / 4) + p.val) (k : Fin 4) (hk : k.val = t.val % 4) :
    (fun q : Fin 1024 => if qlblk V c t (ValueIdx.ix2 p 0) = klblk V c t (ValueIdx.ix2 0 q) then (1 : EReal) else 0)
      = fun q => rowM V c r (Cert.Spec.col k q) := by
  funext q
  rw [qlblk_apply V c t p r hr, klblk_apply V c t q (Cert.Spec.col k q) (by show 1024 * k.val + q.val = _; rw [hk])]

theorem step_blk (c : Dev nD) (t : Fin cfg1.N) (s : St Ideal) (p : Fin 1024) (r : Fin 4096)
    (hr : r.val = 1024 * (t.val / 4) + p.val) (k : Fin 4) (hk : k.val = t.val % 4) :
    accOf (step (iblk V c 0 t) (iblk V c 1 t) (iblk V c 2 t) (iblk V c 3 t) s) p
      = Cert.Spec.Acc.step (fun q => rowX V c r (Cert.Spec.col k q)) (fun q => rowM V c r (Cert.Spec.col k q)) (accOf s p) :=
  (step_row (qblk V c t) (kblk V c t) (qlblk V c t) (klblk V c t) s p).trans
    (congrArg₂ (fun x μ => Cert.Spec.Acc.step x μ (accOf s p)) (logits_blk V c t p r hr k hk) (mask_blk V c t p r hr k hk))

/-- After column block `j` of a row block, row `p` of the running statistics is the specification's state after `j + 1` blocks of row `1024 (n / 4) + p`. -/
theorem acc_row (c : Dev nD) : ∀ (n : ℕ) (hn : n < cfg1.N) (j : ℕ) (hj4 : j + 1 ≤ 4) (hj : n % 4 = j) (p : Fin 1024) (r : Fin 4096)
    (hr : r.val = 1024 * (n / 4) + p.val),
    accOf (accAt V c n hn) p = Cert.Spec.Acc.after (rowX V c r) (rowM V c r) (j + 1) hj4
  | 0, hn, j, hj4, hj, p, r, hr => by
    obtain rfl : j = 0 := by omega
    rw [accAt_first V c ⟨0, hn⟩ rfl, step_blk V c ⟨0, hn⟩ reset p r hr ⟨0, by omega⟩ rfl, reset_row]
    rfl
  | n + 1, hn, j, hj4, hj, p, r, hr => by
    by_cases h0 : (n + 1) % 4 = 0
    · obtain rfl : j = 0 := by omega
      rw [accAt_first V c ⟨n + 1, hn⟩ h0, step_blk V c ⟨n + 1, hn⟩ reset p r hr ⟨0, by omega⟩ h0.symm, reset_row]
      rfl
    · obtain ⟨j', rfl⟩ : ∃ j', j = j' + 1 := ⟨j - 1, by omega⟩
      rw [accAt_next V c ⟨n + 1, hn⟩ h0, step_blk V c ⟨n + 1, hn⟩ _ p r hr ⟨j' + 1, by omega⟩ hj.symm]
      show Cert.Spec.Acc.step _ _ (accOf (accAt V c n _) p) = _
      rw [acc_row c n (Nat.lt_of_succ_lt hn) j' (by omega) (by omega) p r (by omega)]
      rfl

theorem out_last (c : Dev nD) (t : Fin cfg1.N) (h3 : t.val % 4 = 3) (p : Fin 1024) (r : Fin 4096)
    (hr : r.val = 1024 * (t.val / 4) + p.val) :
    outAt V c t.val t.isLt (ValueIdx.ix2 p 0) = Cert.Spec.rowOut (rowX V c r) (rowM V c r) := by
  unfold outAt
  rw [lossOf_row, acc_row V c t.val t.isLt 3 (by omega) h3 p r hr]
  rfl

abbrev lossArr (c : Dev nD) : S4096x1.Idx → Elt Ideal .f32 :=
  fun i => Cert.Spec.rowOut (rowX V c (i 0)) (rowM V c (i 0))

theorem flushed_eq (c : Dev nD) (t : Fin cfg1.N) (hf : (cfg1.win 4).flush t = true) :
    (dat1 V c).flushed 4 t = ((cfg1.win 4).blk t).view.read (Elt Ideal) (lossArr V c) := by
  have h3 : t.val % 4 = 3 := (flush1_4 t).mp hf
  have ht : t.val < 16 := lt_of_lt_of_eq t.isLt (N_1 : cfg1.N = 16)
  obtain ⟨-, -, -, -, -, -, -, -, e0, e1⟩ := blk_index t
  show (cfg1.win 4).cut (grid1.coords t) ((dat1 V c).after 4 t) = _
  rw [after1_4]
  funext y
  obtain ⟨p, z, rfl⟩ : ∃ (p : Fin 1024) (z : Fin 1), y = ValueIdx.ix2 p z := ⟨y 0, y 1, ValueIdx.eq_ix2 (n0 := 1024) (n1 := 1) y⟩
  obtain rfl : z = 0 := Subsingleton.elim _ _
  show outAt V c t.val t.isLt (ValueIdx.ix2 p 0) = lossArr V c (((cfg1.win 4).blk t).view.emb (ValueIdx.ix2 p 0))
  have hemb : ((cfg1.win 4).blk t).view.emb (ValueIdx.ix2 p 0)
      = ValueIdx.ix2 (⟨1024 * (t.val / 4) + p.val, by omega⟩ : Fin 4096) (0 : Fin 1) := by
    funext a
    apply Fin.ext
    match a with
    | ⟨0, _⟩ => show win1_4.index t (0 : Fin 2) * 1024 + 1 * p.val = 1024 * (t.val / 4) + p.val; rw [e0]; omega
    | ⟨1, _⟩ => show win1_4.index t (1 : Fin 2) * 1 + 1 * 0 = 0; rw [e1]
  rw [hemb]
  exact out_last V c t h3 p _ rfl

theorem mem_blk (t : Fin cfg1.N) (i : S4096x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v14).slice (win1_4.rect t)).set ↔ _
  rw [View.set_slice_whole, Rect.mem_set_unit]
  exact Iff.rfl

/-- Row `r` lies in the block of the last-column point of its row block. -/
theorem cover (i : S4096x1.Idx) :
    ∃ t : Fin cfg1.N, (cfg1.win 4).flush t = true ∧ i ∈ ((cfg1.win 4).blk t).view.set := by
  have hi0 : (i 0).val < 4096 := (i 0).isLt
  have hi1 : (i 1).val < 1 := (i 1).isLt
  have hN : cfg1.N = 16 := N_1
  have hlt : 4 * ((i 0).val / 1024) + 3 < cfg1.N := by rw [hN]; omega
  obtain ⟨-, -, -, -, -, -, -, -, e0, e1⟩ := blk_index ⟨4 * ((i 0).val / 1024) + 3, hlt⟩
  refine ⟨⟨4 * ((i 0).val / 1024) + 3, hlt⟩, (flush1_4 _).mpr (by show (4 * ((i 0).val / 1024) + 3) % 4 = 3; omega), ?_⟩
  rw [mem_blk]
  intro a
  match a with
  | ⟨0, _⟩ =>
    show win1_4.index ⟨4 * ((i 0).val / 1024) + 3, hlt⟩ (0 : Fin 2) * 1024 ≤ (i 0).val ∧ (i 0).val < win1_4.index ⟨4 * ((i 0).val / 1024) + 3, hlt⟩ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win1_4.index ⟨4 * ((i 0).val / 1024) + 3, hlt⟩ (1 : Fin 2) * 1 ≤ (i 1).val ∧ (i 1).val < win1_4.index ⟨4 * ((i 0).val / 1024) + 3, hlt⟩ (1 : Fin 2) * 1 + 1
    rw [e1]
    omega

/-- So the array the launch leaves holds, row by row, the specification's statistic of that row's logits and mask. -/
theorem out_arr (c : Dev nD) : (dat1 V c).arrAt 4 cfg1.N = lossArr V c :=
  (dat1 V c).arrAt_eq_of_cover 4 (lossArr V c) (flushed_eq V c) cover

theorem out_row (c : Dev nD) (r : Fin 4096) :
    (dat1 V c).arrAt 4 cfg1.N (ValueIdx.ix2 r 0)
      = Cert.Spec.rowOut (fun j => Cert.Spec.dotRow (qRows V c) (kRows V c) r j * Cert.Spec.invT) (fun j => if qLab V c r = kLab V c j then (1 : EReal) else 0) := by
  rw [out_arr V c]

end Cert.KernelIdeal.R1

end
-- ==== Proof.KI.HostVal.lean ====
import proofs.«145934_j43250320671200_1_alg».proof.Proof.Gen.KernelIdeal.Regions
import proofs.«145934_j43250320671200_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostVal

open Cert.KernelIdeal Cert.KernelIdeal.Gen Idealize.ShloMosaic Idealize.ShloMosaic.TcCoe Idealize.SL.Sem

variable (m : (ℓ : Loc nD τ sig) → Buf (Elt Ideal) ℓ)

abbrev rows (x : (⟨S4096x768, .f32⟩ : BufTy).Contents (Elt Ideal)) : Fin 4096 → Fin 768 → EReal := fun i d => x (ValueIdx.ix2 i d)
abbrev labs (x2 : (⟨S4096, .i32⟩ : BufTy).Contents (Elt Ideal)) : Fin 4096 → BitVec 32 := fun i => x2 (ValueIdx.ix1 i)

theorem after3_v12 (W : Valuation τ sig (Elt Ideal)) :
    (StableHlo.after hostOps0_3 W (Proc.devRef .tc main_v12) : (⟨S4096x1, .i32⟩ : BufTy).Contents (Elt Ideal))
      = shapeCast S4096x1 (W (Proc.devRef .tc main_arg2) : (⟨S4096, .i32⟩ : BufTy).Contents (Elt Ideal)) shapeCasts_S4096_S4096x1 := by
  after_results
  rfl

theorem after3_v13 (W : Valuation τ sig (Elt Ideal)) :
    (StableHlo.after hostOps0_3 W (Proc.devRef .tc main_v13) : (⟨S1x4096, .i32⟩ : BufTy).Contents (Elt Ideal))
      = shapeCast S1x4096 (W (Proc.devRef .tc main_arg2) : (⟨S4096, .i32⟩ : BufTy).Contents (Elt Ideal)) shapeCasts_S4096_S1x4096 := by
  after_results
  rfl

theorem V3_arg2 (c : Dev nD) : V3 m c (Proc.devRef .tc main_arg2) = m ((c.tc : Thread nD τ).loc main_arg2) :=
  (V3_of m c main_arg2 (by decide)).trans <| (V2_of m c main_arg2 (by decide)).trans <| (V1_of m c main_arg2 (by decide)).trans rfl

theorem V4_v12 (c : Dev nD) (i : Fin 4096) : (V4 m c (Proc.devRef .tc main_v12) : (⟨S4096x1, .i32⟩ : BufTy).Contents (Elt Ideal)) (ValueIdx.ix2 i 0) = labs (m ((c.tc : Thread nD τ).loc main_arg2)) i := by
  refine (congrFun (after3_v12 (V3 m c)) (ValueIdx.ix2 i 0)).trans ?_
  rw [V3_arg2]
  exact shapeCast_apply _ shapeCasts_S4096_S4096x1 _ (ValueIdx.ix1 i) (by
    rw [Shape.rowMajor_val_two, Shape.rowMajor_val_one]
    show i.val = i.val * 1 + 0
    omega)

theorem V4_v13 (c : Dev nD) (j : Fin 4096) : (V4 m c (Proc.devRef .tc main_v13) : (⟨S1x4096, .i32⟩ : BufTy).Contents (Elt Ideal)) (ValueIdx.ix2 0 j) = labs (m ((c.tc : Thread nD τ).loc main_arg2)) j := by
  refine (congrFun (after3_v13 (V3 m c)) (ValueIdx.ix2 0 j)).trans ?_
  rw [V3_arg2]
  exact ValueIdx.shapeCast_a_1a_apply _ shapeCasts_S4096_S1x4096 0 j

abbrev normVal (x : (⟨S4096x768, .f32⟩ : BufTy).Contents (Elt Ideal)) : (⟨S4096x1, .f32⟩ : BufTy).Contents (Elt Ideal) :=
  Host.sqrt (broadcastInDim S4096x1 ![0] bcast_S4096_S4096x1_0
    (Host.reduceAdd (mulf x x) (constant (F := Ideal) S_ .f32 0x00000000#32) reducesTo_S4096x768_S4096_d1 h_S_))

abbrev nrmVal (x : (⟨S4096x768, .f32⟩ : BufTy).Contents (Elt Ideal)) (n : (⟨S4096x1, .f32⟩ : BufTy).Contents (Elt Ideal)) :
    (⟨S4096x768, .bf16⟩ : BufTy).Contents (Elt Ideal) :=
  truncf .bf16 (Host.divf x (broadcastInDim S4096x768 ![0, 1] bcast_S4096x1_S4096x768_0_1
    (maximumf n (broadcastInDim S4096x1 ![] bcast_S_S4096x1 (constant (F := Ideal) S_ .f32 0x322BCC77#32))))) bitsLt_bf16_f32

theorem after0_v0 (W : Valuation τ sig (Elt Ideal)) :
    (StableHlo.after hostOps0 W (Proc.devRef .tc main_v0) : (⟨S4096x1, .f32⟩ : BufTy).Contents (Elt Ideal))
      = normVal (W (Proc.devRef .tc main_arg0)) := by
  after_results
  rfl
theorem after1_v5 (W : Valuation τ sig (Elt Ideal)) :
    (StableHlo.after hostOps0_1 W (Proc.devRef .tc main_v5) : (⟨S4096x768, .bf16⟩ : BufTy).Contents (Elt Ideal))
      = nrmVal (W (Proc.devRef .tc main_arg0)) (W (Proc.devRef .tc main_v0)) := by
  after_results
theorem after2_v6 (W : Valuation τ sig (Elt Ideal)) :
    (StableHlo.after hostOps0_2 W (Proc.devRef .tc main_v6) : (⟨S4096x1, .f32⟩ : BufTy).Contents (Elt Ideal))
      = normVal (W (Proc.devRef .tc main_arg1)) := by
  after_results
  rfl
theorem after3_v11 (W : Valuation τ sig (Elt Ideal)) :
    (StableHlo.after hostOps0_3 W (Proc.devRef .tc main_v11) : (⟨S4096x768, .bf16⟩ : BufTy).Contents (Elt Ideal))
      = nrmVal (W (Proc.devRef .tc main_arg1)) (W (Proc.devRef .tc main_v6)) := by
  after_results

theorem normVal_apply (x : S4096x768.Idx → EReal) (i : Fin 4096) (u : Fin 1) :
    normVal x (ValueIdx.ix2 i u) = Ideal.sqrt (∑ e : Fin 768, x (ValueIdx.ix2 i e) * x (ValueIdx.ix2 i e)) := by
  show Ideal.sqrt (broadcastInDim (s := S4096) S4096x1 ![0] bcast_S4096_S4096x1_0 _ (ValueIdx.ix2 i u)) = _
  refine congrArg Ideal.sqrt ?_
  generalize hy : mulf (F := Ideal) (φ := .f32) x x = y
  rw [broadcastInDim_apply _ bcast_S4096_S4096x1_0 _ (ValueIdx.ix2 i u) (ValueIdx.ix1 i) (fun a => match a with
    | ⟨0, _⟩ => by show i.val = if (4096 : Nat) = 1 then 0 else i.val; rw [if_neg (by decide)])]
  simp only [Host.reduceAdd, Ideal.hostReduceAdd_def]
  rw [Ideal.hostReduceAdd_single reducesTo_S4096x768_S4096_d1 (by decide)]
  show Ideal.ofBits .f32 0x00000000#32 + _ = _
  rw [Ideal.ofBits_zero_f32, zero_add]
  refine Finset.sum_congr rfl fun k _ => ?_
  subst hy
  exact congrArg (fun j => x j * x j) (funext fun a => Fin.ext (by match a with | ⟨0, _⟩ => rfl | ⟨1, _⟩ => rfl))

theorem nrmVal_apply (x : S4096x768.Idx → EReal) (n : S4096x1.Idx → EReal) (i : Fin 4096) (d : Fin 768) :
    nrmVal x n (ValueIdx.ix2 i d) = Ideal.div (x (ValueIdx.ix2 i d)) (max (n (ValueIdx.ix2 i 0)) Cert.Spec.epsN) := by
  show Ideal.div (x (ValueIdx.ix2 i d)) (broadcastInDim (s := S4096x1) S4096x768 ![0, 1] bcast_S4096x1_S4096x768_0_1 _ (ValueIdx.ix2 i d)) = _
  refine congrArg (Ideal.div _) ?_
  rw [broadcastInDim_apply _ bcast_S4096x1_S4096x768_0_1 _ (ValueIdx.ix2 i d) (ValueIdx.ix2 i 0) (fun a => match a with
    | ⟨0, _⟩ => by show i.val = if (4096 : Nat) = 1 then 0 else i.val; rw [if_neg (by decide)]
    | ⟨1, _⟩ => by show 0 = if (1 : Nat) = 1 then 0 else d.val; rw [if_pos rfl])]
  show max (n (ValueIdx.ix2 i 0)) (broadcastInDim (s := S_) S4096x1 ![] bcast_S_S4096x1 _ (ValueIdx.ix2 i 0)) = _
  refine congrArg (max _) ?_
  rw [broadcastInDim_apply _ bcast_S_S4096x1 _ (ValueIdx.ix2 i 0) ValueIdx.ix0 (fun a => a.elim0)]
  rfl

theorem V1_arg0 (c : Dev nD) : V1 m c (Proc.devRef .tc main_arg0) = m ((c.tc : Thread nD τ).loc main_arg0) :=
  (V1_of m c main_arg0 (by decide)).trans rfl
theorem V2_arg1 (c : Dev nD) : V2 m c (Proc.devRef .tc main_arg1) = m ((c.tc : Thread nD τ).loc main_arg1) :=
  (V2_of m c main_arg1 (by decide)).trans <| (V1_of m c main_arg1 (by decide)).trans rfl
theorem V3_arg1 (c : Dev nD) : V3 m c (Proc.devRef .tc main_arg1) = m ((c.tc : Thread nD τ).loc main_arg1) :=
  (V3_of m c main_arg1 (by decide)).trans (V2_arg1 m c)
theorem V1_v0 (c : Dev nD) :
    (V1 m c (Proc.devRef .tc main_v0) : (⟨S4096x1, .f32⟩ : BufTy).Contents (Elt Ideal)) = normVal (m ((c.tc : Thread nD τ).loc main_arg0)) :=
  after0_v0 (V0 m c)
theorem V3_v6 (c : Dev nD) :
    (V3 m c (Proc.devRef .tc main_v6) : (⟨S4096x1, .f32⟩ : BufTy).Contents (Elt Ideal)) = normVal (m ((c.tc : Thread nD τ).loc main_arg1)) :=
  (after2_v6 (V2 m c)).trans (congrArg normVal (V2_arg1 m c))

/-- The host prefix leaves the first embedding array normalised row by row, -/
theorem V4_v5 (c : Dev nD) (i : Fin 4096) (d : Fin 768) : (V4 m c (Proc.devRef .tc main_v5) : (⟨S4096x768, .bf16⟩ : BufTy).Contents (Elt Ideal)) (ValueIdx.ix2 i d) = Cert.Spec.nrm (rows (m ((c.tc : Thread nD τ).loc main_arg0))) i d := by
  have e : V4 m c (Proc.devRef .tc main_v5) = V2 m c (Proc.devRef .tc main_v5) :=
    (V4_of m c main_v5 (by decide)).trans (V3_of m c main_v5 (by decide))
  rw [e]
  refine (congrFun (after1_v5 (V1 m c)) (ValueIdx.ix2 i d)).trans ?_
  rw [V1_arg0, V1_v0, nrmVal_apply, normVal_apply]
  rfl

/-- and the second likewise. -/
theorem V4_v11 (c : Dev nD) (i : Fin 4096) (d : Fin 768) : (V4 m c (Proc.devRef .tc main_v11) : (⟨S4096x768, .bf16⟩ : BufTy).Contents (Elt Ideal)) (ValueIdx.ix2 i d) = Cert.Spec.nrm (rows (m ((c.tc : Thread nD τ).loc main_arg1))) i d := by
  refine (congrFun (after3_v11 (V3 m c)) (ValueIdx.ix2 i d)).trans ?_
  rw [V3_arg1, V3_v6, nrmVal_apply, normVal_apply]
  rfl

abbrev tailVal (a b : (⟨S4096x1, .f32⟩ : BufTy).Contents (Elt Ideal)) : (⟨S_, .f32⟩ : BufTy).Contents (Elt Ideal) :=
  Host.divf
    (addf
      (Host.divf (Host.reduceAdd a (constant (F := Ideal) S_ .f32 0x00000000#32) reducesTo_S4096x1_S_d0_1 h_S_) (constant (F := Ideal) S_ .f32 0x45800000#32))
      (Host.divf (Host.reduceAdd b (constant (F := Ideal) S_ .f32 0x00000000#32) reducesTo_S4096x1_S_d0_1 h_S_) (constant (F := Ideal) S_ .f32 0x45800000#32)))
    (constant (F := Ideal) S_ .f32 0x40000000#32)

theorem after2_v21 (W : Valuation τ sig (Elt Ideal)) :
    (StableHlo.after hostOps2 W (Proc.devRef .tc main_v21) : (⟨S_, .f32⟩ : BufTy).Contents (Elt Ideal))
      = tailVal (W (Proc.devRef .tc main_v14)) (W (Proc.devRef .tc main_v15)) := by
  after_results

theorem sum_col1 (y : S4096x1.Idx → EReal) : ∑ j : S4096x1.Idx, y j = ∑ r : Fin 4096, y (ValueIdx.ix2 r 0) := by
  rw [ValueIdx.sum_idx2]
  exact Finset.sum_congr rfl fun r _ => Fin.sum_univ_one _

theorem reduce_total (y : S4096x1.Idx → EReal) (i : S_.Idx) :
    (Host.reduceAdd (F := Ideal) (φ := .f32) y (constant (F := Ideal) S_ .f32 0x00000000#32) reducesTo_S4096x1_S_d0_1 h_S_) i
      = ∑ r : Fin 4096, y (ValueIdx.ix2 r 0) := by
  simp only [Host.reduceAdd, Ideal.hostReduceAdd_def]
  rw [Ideal.hostReduceAdd_total reducesTo_S4096x1_S_d0_1 (fun b => b.elim0) y _ i]
  show Ideal.ofBits .f32 0x00000000#32 + _ = _
  rw [Ideal.ofBits_zero_f32, zero_add, sum_col1]

theorem tailVal_apply (a b : S4096x1.Idx → EReal) (i : S_.Idx) :
    tailVal a b i = Ideal.div (Ideal.div (∑ r : Fin 4096, a (ValueIdx.ix2 r 0)) ((4096 : ℝ) : EReal)
        + Ideal.div (∑ r : Fin 4096, b (ValueIdx.ix2 r 0)) ((4096 : ℝ) : EReal)) ((2 : ℝ) : EReal) := by
  show Ideal.div (Ideal.div (Host.reduceAdd (F := Ideal) (φ := .f32) a _ _ _ i) (Ideal.ofBits .f32 0x45800000#32)
      + Ideal.div (Host.reduceAdd (F := Ideal) (φ := .f32) b _ _ _ i) (Ideal.ofBits .f32 0x45800000#32)) (Ideal.ofBits .f32 0x40000000#32) = _
  rw [reduce_total, reduce_total, Cert.Spec.ofBits_4096, Cert.Spec.ofBits_2]

theorem V6_v14 (outs : Outs (F := Ideal)) (c : Dev nD) : V6 m outs c (Proc.devRef .tc main_v14) = outs 5 main_v14 c := by
  rw [V6_of m outs c main_v14 (by decide)]
  exact Function.update_self ..
theorem V6_v15 (outs : Outs (F := Ideal)) (c : Dev nD) : V6 m outs c (Proc.devRef .tc main_v15) = outs 6 main_v15 c :=
  Function.update_self ..

/-- The host tail averages the two launches' row losses over the rows and over the two launches. -/
theorem V7_v21 (outs : Outs (F := Ideal)) (c : Dev nD) (i : S_.Idx) :
    (V7 m outs c (Proc.devRef .tc main_v21) : (⟨S_, .f32⟩ : BufTy).Contents (Elt Ideal)) i
      = Ideal.div (Ideal.div (∑ r : Fin 4096, (outs 5 main_v14 c : (⟨S4096x1, .f32⟩ : BufTy).Contents (Elt Ideal)) (ValueIdx.ix2 r 0)) ((4096 : ℝ) : EReal)
          + Ideal.div (∑ r : Fin 4096, (outs 6 main_v15 c : (⟨S4096x1, .f32⟩ : BufTy).Contents (Elt Ideal)) (ValueIdx.ix2 r 0)) ((4096 : ℝ) : EReal)) ((2 : ℝ) : EReal) := by
  refine (congrFun (after2_v21 (V6 m outs c)) i).trans ?_
  rw [V6_v14, V6_v15]
  exact tailVal_apply _ _ i

end Cert.KernelIdeal.HostVal

end
-- ==== Proof.Bridge.lean ====
import proofs.«145934_j43250320671200_1_alg».proof.Proof.Spec

noncomputable section

namespace Cert.Bridge

open Idealize.ShloMosaic Cert.Spec

/-- On real inputs the product with the named reciprocal and the quotient by the temperature are one real logit, so the two losses agree. -/
theorem kernel_eq_reference (R0 R1 : Fin 4096 → Fin 768 → EReal) (lab : Fin 4096 → BitVec 32)
    (h0 : ∀ i d, ∃ r : ℝ, R0 i d = (r : EReal)) (h1 : ∀ i d, ∃ r : ℝ, R1 i d = (r : EReal)) :
    kerLoss (fun i j => dotRow (nrm R0) (nrm R1) i j * invT) (fun i j => dotRow (nrm R1) (nrm R0) i j * invT) (mask lab)
      = refLoss (fun i j => Ideal.div (dotRow (nrm R0) (nrm R1) i j) (Ideal.ofBits .f32 0x3D8F5C29#32)) (mask lab) := by
  choose X0 hX0 using h0
  choose X1 hX1 using h1
  obtain rfl : R0 = fun i d => ((X0 i d : ℝ) : EReal) := funext fun i => funext fun d => hX0 i d
  obtain rfl : R1 = fun i d => ((X1 i d : ℝ) : EReal) := funext fun i => funext fun d => hX1 i d
  obtain ⟨A, hA⟩ := nrm_real X0
  obtain ⟨B, hB⟩ := nrm_real X1
  have eA : nrm (fun i d => ((X0 i d : ℝ) : EReal)) = fun i d => ((A i d : ℝ) : EReal) := funext fun i => funext fun d => hA i d
  have eB : nrm (fun i d => ((X1 i d : ℝ) : EReal)) = fun i d => ((B i d : ℝ) : EReal) := funext fun i => funext fun d => hB i d
  rw [eA, eB]
  have e1 : (fun i j => dotRow (fun i d => ((A i d : ℝ) : EReal)) (fun i d => ((B i d : ℝ) : EReal)) i j * invT)
      = fun i j => ((logitR A B i j : ℝ) : EReal) := funext fun i => funext fun j => dotRow_mul_invT A B i j
  have e2 : (fun i j => dotRow (fun i d => ((B i d : ℝ) : EReal)) (fun i d => ((A i d : ℝ) : EReal)) i j * invT)
      = fun i j => ((logitR A B j i : ℝ) : EReal) := funext fun i => funext fun j => by rw [dotRow_mul_invT B A i j, logitR_swap]
  have e3 : (fun i j => Ideal.div (dotRow (fun i d => ((A i d : ℝ) : EReal)) (fun i d => ((B i d : ℝ) : EReal)) i j) (Ideal.ofBits .f32 0x3D8F5C29#32))
      = fun i j => ((logitR A B i j : ℝ) : EReal) := funext fun i => funext fun j => dotRow_div_temp A B i j
  rw [e1, e2, e3]
  exact kerLoss_eq_refLoss (logitR A B) lab

end Cert.Bridge

end
-- ==== Proof.KI.KernelValue.lean ====
import proofs.«145934_j43250320671200_1_alg».proof.Proof.KI.Frame
import proofs.«145934_j43250320671200_1_alg».proof.Proof.KI.Value0
import proofs.«145934_j43250320671200_1_alg».proof.Proof.KI.Value1
import proofs.«145934_j43250320671200_1_alg».proof.Proof.KI.HostVal
import proofs.«145934_j43250320671200_1_alg».proof.Proof.Bridge

noncomputable section

namespace Cert.KernelIdeal.Launch

open Cert.KernelIdeal Cert.KernelIdeal.Gen Cert.KernelIdeal.HostVal
open Idealize.ShloMosaic Idealize.ShloMosaic.TcCoe Idealize.SL.Sem

variable (m : (ℓ : Loc nD τ sig) → Buf (Elt Ideal) ℓ)

theorem W5_of (c : Dev nD) (b : Ref sig .tc) (h : b ≠ main_v14) : W5 m c (Proc.devRef .tc b) = V4 m c (Proc.devRef .tc b) :=
  Function.update_of_ne (StableHlo.devRef_ne_of_ne h) _ _

theorem out5_row (c : Dev nD) (r : Fin 4096) :
    (outs m 5 main_v14 c : (⟨S4096x1, .f32⟩ : BufTy).Contents (Elt Ideal)) (ValueIdx.ix2 r 0)
      = Cert.Spec.rowOut
          (fun j => Cert.Spec.dotRow (Cert.Spec.nrm (rows (m ((c.tc : Thread nD τ).loc main_arg0)))) (Cert.Spec.nrm (rows (m ((c.tc : Thread nD τ).loc main_arg1)))) r j * Cert.Spec.invT)
          (Cert.Spec.mask (labs (m ((c.tc : Thread nD τ).loc main_arg2))) r) := by
  rw [outs_5]
  show (R0.dat0 (E4 m) c).arrAt 4 cfg0.N (ValueIdx.ix2 r 0) = _
  rw [R0.out_row (E4 m) c r]
  have hq : R0.qRows (E4 m) c = Cert.Spec.nrm (rows (m ((c.tc : Thread nD τ).loc main_arg0))) := funext fun i => funext fun d => V4_v5 m c i d
  have hk : R0.kRows (E4 m) c = Cert.Spec.nrm (rows (m ((c.tc : Thread nD τ).loc main_arg1))) := funext fun i => funext fun d => V4_v11 m c i d
  have hql : R0.qLab (E4 m) c = labs (m ((c.tc : Thread nD τ).loc main_arg2)) := funext fun i => V4_v12 m c i
  have hkl : R0.kLab (E4 m) c = labs (m ((c.tc : Thread nD τ).loc main_arg2)) := funext fun j => V4_v13 m c j
  rw [hq, hk, hql, hkl]
  rfl

/-- The second launch swaps the two arrays: its row `r` is the first array's column `r` of logits. -/
theorem out6_row (c : Dev nD) (r : Fin 4096) :
    (outs m 6 main_v15 c : (⟨S4096x1, .f32⟩ : BufTy).Contents (Elt Ideal)) (ValueIdx.ix2 r 0)
      = Cert.Spec.rowOut
          (fun j => Cert.Spec.dotRow (Cert.Spec.nrm (rows (m ((c.tc : Thread nD τ).loc main_arg1)))) (Cert.Spec.nrm (rows (m ((c.tc : Thread nD τ).loc main_arg0)))) r j * Cert.Spec.invT)
          (Cert.Spec.mask (labs (m ((c.tc : Thread nD τ).loc main_arg2))) r) := by
  rw [outs_6]
  show (R1.dat1 (E5 m) c).arrAt 4 cfg1.N (ValueIdx.ix2 r 0) = _
  rw [R1.out_row (E5 m) c r]
  have hq : R1.qRows (E5 m) c = Cert.Spec.nrm (rows (m ((c.tc : Thread nD τ).loc main_arg1))) := funext fun i => funext fun d =>
    (congrFun (W5_of m c main_v11 (by decide)) _).trans (V4_v11 m c i d)
  have hk : R1.kRows (E5 m) c = Cert.Spec.nrm (rows (m ((c.tc : Thread nD τ).loc main_arg0))) := funext fun i => funext fun d =>
    (congrFun (W5_of m c main_v5 (by decide)) _).trans (V4_v5 m c i d)
  have hql : R1.qLab (E5 m) c = labs (m ((c.tc : Thread nD τ).loc main_arg2)) := funext fun i =>
    (congrFun (W5_of m c main_v12 (by decide)) _).trans (V4_v12 m c i)
  have hkl : R1.kLab (E5 m) c = labs (m ((c.tc : Thread nD τ).loc main_arg2)) := funext fun j =>
    (congrFun (W5_of m c main_v13 (by decide)) _).trans (V4_v13 m c j)
  rw [hq, hk, hql, hkl]
  rfl

theorem kernel_loss (c : Dev nD) (i : S_.Idx) :
    (V7 m (outs m) c (Proc.devRef .tc main_v21) : (⟨S_, .f32⟩ : BufTy).Contents (Elt Ideal)) i
      = Cert.Spec.kerLoss
          (fun i j => Cert.Spec.dotRow (Cert.Spec.nrm (rows (m ((c.tc : Thread nD τ).loc main_arg0)))) (Cert.Spec.nrm (rows (m ((c.tc : Thread nD τ).loc main_arg1)))) i j * Cert.Spec.invT)
          (fun i j => Cert.Spec.dotRow (Cert.Spec.nrm (rows (m ((c.tc : Thread nD τ).loc main_arg1)))) (Cert.Spec.nrm (rows (m ((c.tc : Thread nD τ).loc main_arg0)))) i j * Cert.Spec.invT)
          (Cert.Spec.mask (labs (m ((c.tc : Thread nD τ).loc main_arg2)))) := by
  rw [V7_v21 m (outs m) c i]
  unfold Cert.Spec.kerLoss
  have e5 := fun r : Fin 4096 => out5_row m c r
  have e6 := fun r : Fin 4096 => out6_row m c r
  simp only [e5, e6]

/-- On finite arguments the program's result is the reference's loss. -/
theorem kernel_value (c : Dev nD)
    (h0 : ∀ i, ∃ r : ℝ, (m ((c.tc : Thread nD τ).loc main_arg0) : (⟨S4096x768, .f32⟩ : BufTy).Contents (Elt Ideal)) i = (r : EReal))
    (h1 : ∀ i, ∃ r : ℝ, (m ((c.tc : Thread nD τ).loc main_arg1) : (⟨S4096x768, .f32⟩ : BufTy).Contents (Elt Ideal)) i = (r : EReal)) :
    (V7 m (outs m) c (Proc.devRef .tc main_v21) : (⟨S_, .f32⟩ : BufTy).Contents (Elt Ideal))
      = fun _ => Cert.Spec.refLoss
          (fun i j => Ideal.div (Cert.Spec.dotRow (Cert.Spec.nrm (rows (m ((c.tc : Thread nD τ).loc main_arg0)))) (Cert.Spec.nrm (rows (m ((c.tc : Thread nD τ).loc main_arg1)))) i j) (Ideal.ofBits .f32 0x3D8F5C29#32))
          (Cert.Spec.mask (labs (m ((c.tc : Thread nD τ).loc main_arg2)))) := by
  funext i
  rw [kernel_loss m c i]
  exact Cert.Bridge.kernel_eq_reference _ _ _ (fun i d => h0 _) (fun i d => h1 _)

end Cert.KernelIdeal.Launch

end
-- ==== Proof.RefValue.lean ====
import proofs.«145934_j43250320671200_1_alg».proof.Proof.RefRun
import proofs.«145934_j43250320671200_1_alg».proof.Proof.RefRead
import proofs.«145934_j43250320671200_1_alg».proof.Proof.Spec
import Idealize.ShloMosaic.Lib.Pipeline.Frame
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.SL.Sem
open Idealize.ShloMosaic.TcCoe Idealize.ShloMosaic.StableHlo Idealize.ShloMosaic.ValueIdx

abbrev rows (x : (⟨S4096x768, .f32⟩ : BufTy).Contents (Elt Ideal)) : Fin 4096 → Fin 768 → EReal := fun i d => x (ValueIdx.ix2 i d)
abbrev labs (x2 : (⟨S4096, .i32⟩ : BufTy).Contents (Elt Ideal)) : Fin 4096 → BitVec 32 := fun i => x2 (ValueIdx.ix1 i)
def refLogit (a b : Fin 4096 → Fin 768 → EReal) (i j : Fin 4096) : EReal :=
  Ideal.div (Cert.Spec.dotRow a b i j) (Ideal.ofBits .f32 0x3D8F5C29#32)

section Fold

variable {F : FTy → Type} [FloatOps F]

theorem after_split (n : Nat) (l : List (HloOp τ sig (Elt F))) (V : Valuation τ sig (Elt F)) :
    after l V = after (l.drop n) (after (l.take n) V) := by
  rw [← StableHlo.after_append, List.take_append_drop]

theorem after_cut (n k s : Nat) (hs : n + k = s) (l : List (HloOp τ sig (Elt F))) (V : Valuation τ sig (Elt F)) :
    after (l.drop n) V = after (l.drop s) (after ((l.drop n).take k) V) := by
  subst hs
  rw [after_split k (l.drop n) V, List.drop_drop]

macro "stretch" : tactic => `(tactic| (
  simp only [Value.ops, List.drop_succ_cons, List.drop_zero, List.take_succ_cons, List.take_zero]
  try simp only [TRef.binary, TRef.unary, TRef.nullary, TRef.ofBuf, TRef.toBuf, cast_eq]))

theorem fold_A_v4 (V : Valuation τ sig (Elt F)) :
    after ((Value.ops (F := F)).take 10) V (Proc.devRef .tc main_v4) = Read.val_main_v4 (F := F) (V (Proc.devRef .tc main_arg0)) := by
  stretch
  after_results_simp <;> rfl

theorem fold_A_arg1 (V : Valuation τ sig (Elt F)) :
    after ((Value.ops (F := F)).take 10) V (Proc.devRef .tc main_arg1) = V (Proc.devRef .tc main_arg1) := by
  stretch
  after_results_simp <;> rfl

theorem fold_A_arg2 (V : Valuation τ sig (Elt F)) :
    after ((Value.ops (F := F)).take 10) V (Proc.devRef .tc main_arg2) = V (Proc.devRef .tc main_arg2) := by
  stretch
  after_results_simp <;> rfl

theorem fold_B_v9 (V : Valuation τ sig (Elt F)) :
    after (((Value.ops (F := F)).drop 10).take 10) V (Proc.devRef .tc main_v9) = Read.val_main_v9 (F := F) (V (Proc.devRef .tc main_arg1)) := by
  stretch
  after_results_simp <;> rfl

theorem fold_B_v4 (V : Valuation τ sig (Elt F)) :
    after (((Value.ops (F := F)).drop 10).take 10) V (Proc.devRef .tc main_v4) = V (Proc.devRef .tc main_v4) := by
  stretch
  after_results_simp <;> rfl

theorem fold_B_arg2 (V : Valuation τ sig (Elt F)) :
    after (((Value.ops (F := F)).drop 10).take 10) V (Proc.devRef .tc main_arg2) = V (Proc.devRef .tc main_arg2) := by
  stretch
  after_results_simp <;> rfl

theorem fold_C_v12 (V : Valuation τ sig (Elt F)) (x0 x1 : (⟨S4096x768, .f32⟩ : BufTy).Contents (Elt F))
    (h4 : V (Proc.devRef .tc main_v4) = Read.val_main_v4 (F := F) x0)
    (h9 : V (Proc.devRef .tc main_v9) = Read.val_main_v9 (F := F) x1) :
    after (((Value.ops (F := F)).drop 20).take 4) V (Proc.devRef .tc main_v12) = Read.val_main_v12 (F := F) x0 x1 := by
  stretch
  after_results_simp
  rw [h4, h9]
  rfl

theorem fold_C_arg2 (V : Valuation τ sig (Elt F)) :
    after (((Value.ops (F := F)).drop 20).take 4) V (Proc.devRef .tc main_arg2) = V (Proc.devRef .tc main_arg2) := by
  stretch
  after_results_simp <;> rfl

theorem fold_D_v18 (V : Valuation τ sig (Elt F)) :
    after (((Value.ops (F := F)).drop 24).take 6) V (Proc.devRef .tc main_v18) = Read.val_main_v18 (F := F) (V (Proc.devRef .tc main_arg2)) := by
  stretch
  after_results_simp <;> rfl

theorem fold_D_v12 (V : Valuation τ sig (Elt F)) :
    after (((Value.ops (F := F)).drop 24).take 6) V (Proc.devRef .tc main_v12) = V (Proc.devRef .tc main_v12) := by
  stretch
  after_results_simp <;> rfl

theorem fold_E_v19 (V : Valuation τ sig (Elt F)) (x0 x1 : (⟨S4096x768, .f32⟩ : BufTy).Contents (Elt F))
    (h12 : V (Proc.devRef .tc main_v12) = Read.val_main_v12 (F := F) x0 x1) :
    after (((Value.ops (F := F)).drop 30).take 15) V (Proc.devRef .tc main_v19) = Read.val_main_v19 (F := F) x0 x1 := by
  stretch
  after_results_simp
  rw [h12]
  rfl

theorem fold_E_v12 (V : Valuation τ sig (Elt F)) :
    after (((Value.ops (F := F)).drop 30).take 15) V (Proc.devRef .tc main_v12) = V (Proc.devRef .tc main_v12) := by
  stretch
  after_results_simp <;> rfl

theorem fold_E_v18 (V : Valuation τ sig (Elt F)) :
    after (((Value.ops (F := F)).drop 30).take 15) V (Proc.devRef .tc main_v18) = V (Proc.devRef .tc main_v18) := by
  stretch
  after_results_simp <;> rfl

theorem fold_F_v24 (V : Valuation τ sig (Elt F)) (x0 x1 : (⟨S4096x768, .f32⟩ : BufTy).Contents (Elt F))
    (x2 : (⟨S4096, .i32⟩ : BufTy).Contents (Elt F))
    (h18 : V (Proc.devRef .tc main_v18) = Read.val_main_v18 (F := F) x2)
    (h19 : V (Proc.devRef .tc main_v19) = Read.val_main_v19 (F := F) x0 x1) :
    after (((Value.ops (F := F)).drop 45).take 8) V (Proc.devRef .tc main_v24) = Read.val_main_v24 (F := F) x0 x1 x2 := by
  stretch
  after_results_simp
  rw [h18, h19]
  rfl

theorem fold_F_v12 (V : Valuation τ sig (Elt F)) :
    after (((Value.ops (F := F)).drop 45).take 8) V (Proc.devRef .tc main_v12) = V (Proc.devRef .tc main_v12) := by
  stretch
  after_results_simp <;> rfl

theorem fold_F_v18 (V : Valuation τ sig (Elt F)) :
    after (((Value.ops (F := F)).drop 45).take 8) V (Proc.devRef .tc main_v18) = V (Proc.devRef .tc main_v18) := by
  stretch
  after_results_simp <;> rfl

theorem fold_G_v25 (V : Valuation τ sig (Elt F)) (x0 x1 : (⟨S4096x768, .f32⟩ : BufTy).Contents (Elt F))
    (h12 : V (Proc.devRef .tc main_v12) = Read.val_main_v12 (F := F) x0 x1) :
    after (((Value.ops (F := F)).drop 53).take 15) V (Proc.devRef .tc main_v25) = Read.val_main_v25 (F := F) x0 x1 := by
  stretch
  after_results_simp
  rw [h12]
  rfl

theorem fold_G_v18 (V : Valuation τ sig (Elt F)) :
    after (((Value.ops (F := F)).drop 53).take 15) V (Proc.devRef .tc main_v18) = V (Proc.devRef .tc main_v18) := by
  stretch
  after_results_simp <;> rfl

theorem fold_G_v24 (V : Valuation τ sig (Elt F)) :
    after (((Value.ops (F := F)).drop 53).take 15) V (Proc.devRef .tc main_v24) = V (Proc.devRef .tc main_v24) := by
  stretch
  after_results_simp <;> rfl

theorem fold_H_v32 (V : Valuation τ sig (Elt F)) (x0 x1 : (⟨S4096x768, .f32⟩ : BufTy).Contents (Elt F))
    (x2 : (⟨S4096, .i32⟩ : BufTy).Contents (Elt F))
    (h18 : V (Proc.devRef .tc main_v18) = Read.val_main_v18 (F := F) x2)
    (h24 : V (Proc.devRef .tc main_v24) = Read.val_main_v24 (F := F) x0 x1 x2)
    (h25 : V (Proc.devRef .tc main_v25) = Read.val_main_v25 (F := F) x0 x1) :
    after ((Value.ops (F := F)).drop 68) V (Proc.devRef .tc main_v32) = Read.val_main_v32 (F := F) x0 x1 x2 := by
  stretch
  after_results_simp
  rw [h18, h24, h25]
  rfl

/-- The reference's operations, run in eight stretches, leave the composed term of the three arguments. -/
theorem fold_eq (V : Valuation τ sig (Elt F)) :
    after (Value.ops (F := F)) V (Proc.devRef .tc main_v32)
      = Read.val_main_v32 (F := F) (V (Proc.devRef .tc main_arg0)) (V (Proc.devRef .tc main_arg1)) (V (Proc.devRef .tc main_arg2)) := by
  generalize hx0 : V (Proc.devRef .tc main_arg0) = x0
  generalize hx1 : V (Proc.devRef .tc main_arg1) = x1
  generalize hx2 : V (Proc.devRef .tc main_arg2) = x2
  rw [after_split 10 (Value.ops (F := F)) V]
  have a4 := (fold_A_v4 V).trans (congrArg Read.val_main_v4 hx0)
  have a1 := (fold_A_arg1 V).trans hx1
  have a2 := (fold_A_arg2 V).trans hx2
  generalize after ((Value.ops (F := F)).take 10) V = W1 at a4 a1 a2 ⊢
  rw [after_cut 10 10 20 rfl (Value.ops (F := F)) W1]
  have b4 := (fold_B_v4 W1).trans a4
  have b9 := (fold_B_v9 W1).trans (congrArg Read.val_main_v9 a1)
  have b2 := (fold_B_arg2 W1).trans a2
  generalize after (((Value.ops (F := F)).drop 10).take 10) W1 = W2 at b4 b9 b2 ⊢
  rw [after_cut 20 4 24 rfl (Value.ops (F := F)) W2]
  have c12 := fold_C_v12 W2 x0 x1 b4 b9
  have c2 := (fold_C_arg2 W2).trans b2
  generalize after (((Value.ops (F := F)).drop 20).take 4) W2 = W3 at c12 c2 ⊢
  rw [after_cut 24 6 30 rfl (Value.ops (F := F)) W3]
  have d18 := (fold_D_v18 W3).trans (congrArg Read.val_main_v18 c2)
  have d12 := (fold_D_v12 W3).trans c12
  generalize after (((Value.ops (F := F)).drop 24).take 6) W3 = W4 at d18 d12 ⊢
  rw [after_cut 30 15 45 rfl (Value.ops (F := F)) W4]
  have e19 := fold_E_v19 W4 x0 x1 d12
  have e12 := (fold_E_v12 W4).trans d12
  have e18 := (fold_E_v18 W4).trans d18
  generalize after (((Value.ops (F := F)).drop 30).take 15) W4 = W5 at e19 e12 e18 ⊢
  rw [after_cut 45 8 53 rfl (Value.ops (F := F)) W5]
  have f24 := fold_F_v24 W5 x0 x1 x2 e18 e19
  have f12 := (fold_F_v12 W5).trans e12
  have f18 := (fold_F_v18 W5).trans e18
  generalize after (((Value.ops (F := F)).drop 45).take 8) W5 = W6 at f24 f12 f18 ⊢
  rw [after_cut 53 15 68 rfl (Value.ops (F := F)) W6]
  have g25 := fold_G_v25 W6 x0 x1 f12
  have g18 := (fold_G_v18 W6).trans f18
  have g24 := (fold_G_v24 W6).trans f24
  generalize after (((Value.ops (F := F)).drop 53).take 15) W6 = W7 at g25 g18 g24 ⊢
  exact fold_H_v32 W7 x0 x1 x2 g18 g24 g25

end Fold

theorem after_eq (m : (ℓ : Loc nD τ sig) → Buf (Elt Ideal) ℓ) (c : Dev nD) :
    StableHlo.after (Cert.ReferenceIdeal.Value.ops (F := Ideal)) (fun b => m (c, b)) (Proc.devRef .tc main_v32)
      = Cert.ReferenceIdeal.Read.val_main_v32 (F := Ideal) (m ((c.tc : Thread nD τ).loc main_arg0))
          (m ((c.tc : Thread nD τ).loc main_arg1)) (m ((c.tc : Thread nD τ).loc main_arg2)) :=
  fold_eq (F := Ideal) (fun b => m (c, b))

theorem bot_word : Ideal.ofBits .f32 0xFF800000#32 = (⊥ : EReal) := by
  simp [Ideal.ofBits, Ideal.ieee]

theorem mask_word (a b : BitVec 32) :
    FloatOps.uitofp (F := Ideal) .f32 (IntOp.cmpi .eq a b) = if a = b then (1 : EReal) else 0 := by
  by_cases h : a = b
  · subst h
    rw [if_pos rfl]
    simp [IntOp.cmpi, FloatOps.uitofp]
  · rw [if_neg h]
    simp [IntOp.cmpi, FloatOps.uitofp, h]

theorem sum_idx1 {M : Type*} [AddCommMonoid M] {n : Nat} (f : (⟨1, ![n]⟩ : Shape).Idx → M) :
    ∑ j, f j = ∑ a : Fin n, f (ix1 a) := by
  refine Fintype.sum_equiv ⟨fun j => j 0, fun a => ix1 a, fun j => (eq_ix1 j).symm, fun _ => rfl⟩ _ _ fun j => ?_
  exact congrArg f (eq_ix1 j)

variable (x0 x1 : (⟨S4096x768, .f32⟩ : BufTy).Contents (Elt Ideal)) (x2 : (⟨S4096, .i32⟩ : BufTy).Contents (Elt Ideal))

theorem sumsq0 (i : Fin 4096) :
    Read.val_main_call0_v1 (F := Ideal) x0 (ix1 i) = ∑ e : Fin 768, rows x0 i e * rows x0 i e := by
  rw [Read.val_main_call0_v1_apply, Read.val_main_call0_cst_apply, Ideal.ofBits_def, Ideal.ofBits_zero_f32, zero_add]
  refine Finset.sum_congr rfl fun k _ => ?_
  have e : Read.idx_main_call0_v1 (ix1 i) k = ix2 i k :=
    funext fun a => by match a with | ⟨0, _⟩ => rfl | ⟨1, _⟩ => rfl
  rw [e, Read.val_main_call0_v0_apply, Ideal.mulf_def]

theorem nrm0 (i : Fin 4096) (d : Fin 768) :
    Read.val_main_v4 (F := Ideal) x0 (ix2 i d) = Cert.Spec.nrm (rows x0) i d := by
  have e3 : Read.idx_main_v3 (ix2 i d) = ix2 i (0 : Fin 1) :=
    funext fun a => by match a with | ⟨0, _⟩ => rfl | ⟨1, _⟩ => rfl
  have e2 : Read.idx_main_call0_v2 (ix2 i (0 : Fin 1)) = ix1 i :=
    funext fun a => by match a with | ⟨0, _⟩ => rfl
  rw [Read.val_main_v4_apply, Read.val_main_v3_apply, e3, Read.val_main_v2_apply, Read.val_main_v1_apply,
    Read.val_main_cst_apply, Read.val_main_v0_apply, Read.val_main_call0_v2_apply, e2, sumsq0]
  rfl

theorem sumsq1 (i : Fin 4096) :
    Read.val_main_call1_v1 (F := Ideal) x1 (ix1 i) = ∑ e : Fin 768, rows x1 i e * rows x1 i e := by
  rw [Read.val_main_call1_v1_apply, Read.val_main_call1_cst_apply, Ideal.ofBits_def, Ideal.ofBits_zero_f32, zero_add]
  refine Finset.sum_congr rfl fun k _ => ?_
  have e : Read.idx_main_call1_v1 (ix1 i) k = ix2 i k :=
    funext fun a => by match a with | ⟨0, _⟩ => rfl | ⟨1, _⟩ => rfl
  rw [e, Read.val_main_call1_v0_apply, Ideal.mulf_def]

theorem nrm1 (i : Fin 4096) (d : Fin 768) :
    Read.val_main_v9 (F := Ideal) x1 (ix2 i d) = Cert.Spec.nrm (rows x1) i d := by
  have e8 : Read.idx_main_v8 (ix2 i d) = ix2 i (0 : Fin 1) :=
    funext fun a => by match a with | ⟨0, _⟩ => rfl | ⟨1, _⟩ => rfl
  have e2 : Read.idx_main_call1_v2 (ix2 i (0 : Fin 1)) = ix1 i :=
    funext fun a => by match a with | ⟨0, _⟩ => rfl
  rw [Read.val_main_v9_apply, Read.val_main_v8_apply, e8, Read.val_main_v7_apply, Read.val_main_v6_apply,
    Read.val_main_cst_0_apply, Read.val_main_v5_apply, Read.val_main_call1_v2_apply, e2, sumsq1]
  rfl

abbrev lg : Fin 4096 → Fin 4096 → EReal := fun i j => Read.val_main_v12 (F := Ideal) x0 x1 (ix2 i j)

/-- The reference's logits are the dot products of the normalised rows divided by the temperature. -/
theorem lg_eq : lg x0 x1 = refLogit (Cert.Spec.nrm (rows x0)) (Cert.Spec.nrm (rows x1)) := by
  funext i j
  have el (k : Fin 768) : Read.lidx_main_v10 (ix2 i j) k = ix2 i k :=
    funext fun a => by match a with | ⟨0, _⟩ => rfl | ⟨1, _⟩ => rfl
  have er (k : Fin 768) : Read.ridx_main_v10 (ix2 i j) k = ix2 j k :=
    funext fun a => by match a with | ⟨0, _⟩ => rfl | ⟨1, _⟩ => rfl
  have es : (∑ k : Fin 768, Read.val_main_v4 (F := Ideal) x0 (Read.lidx_main_v10 (ix2 i j) k)
        * Read.val_main_v9 (F := Ideal) x1 (Read.ridx_main_v10 (ix2 i j) k))
      = Cert.Spec.dotRow (Cert.Spec.nrm (rows x0)) (Cert.Spec.nrm (rows x1)) i j :=
    Finset.sum_congr rfl fun k _ => by rw [el k, er k, nrm0, nrm1]
  show Read.val_main_v12 (F := Ideal) x0 x1 (ix2 i j) = _
  rw [Read.val_main_v12_apply, Read.val_main_v11_apply, Read.val_main_cst_1_apply, Read.val_main_v10_apply, es]
  rfl

theorem mask_read (i j : Fin 4096) :
    Read.val_main_v18 (F := Ideal) x2 (ix2 i j) = Cert.Spec.mask (labs x2) i j := by
  have e15 : Read.idx_main_v15 (ix2 i j) = ix2 i (0 : Fin 1) :=
    funext fun a => by match a with | ⟨0, _⟩ => rfl | ⟨1, _⟩ => rfl
  have e13 : Read.idx_main_v13 (ix2 i (0 : Fin 1)) = ix1 i :=
    funext fun a => by match a with | ⟨0, _⟩ => rfl
  have e16 : Read.idx_main_v16 (ix2 i j) = ix2 (0 : Fin 1) j :=
    funext fun a => by match a with | ⟨0, _⟩ => rfl | ⟨1, _⟩ => rfl
  have e14 : Read.idx_main_v14 (ix2 (0 : Fin 1) j) = ix1 j :=
    funext fun a => by match a with | ⟨0, _⟩ => rfl
  rw [Read.val_main_v18_apply, Read.val_main_v17_apply, Read.val_main_v15_apply, e15, Read.val_main_v13_apply, e13,
    Read.val_main_v16_apply, e16, Read.val_main_v14_apply, e14]
  exact mask_word _ _

theorem maxRow_read (y : (⟨S4096x4096, .f32⟩ : BufTy).Contents (Elt Ideal)) (init : (⟨S_, .f32⟩ : BufTy).Contents (Elt Ideal))
    (i : Fin 4096) :
    Host.reduce (FloatOps.maximumf (F := Ideal) (φ := .f32)) y init reducesTo_S4096x4096_S4096_d1 h_S_ (ix1 i)
      = (Finset.univ : Finset (Fin 4096)).fold max (init (Shape.Idx.first h_S_)) (fun j => y (ix2 i j)) := by
  have h : S4096x4096.Reduces [1] S4096 := by decide
  rw [Host.reduce_eq_fold_single (FloatOps.maximumf (F := Ideal) (φ := .f32)) y init reducesTo_S4096x4096_S4096_d1 h h_S_ (ix1 i)]
  have e : (y ∘ h.lift (ix1 i)) = fun j : Fin 4096 => y (ix2 i j) :=
    funext fun j => congrArg y (funext fun a => by match a with | ⟨0, _⟩ => rfl | ⟨1, _⟩ => rfl)
  rw [e]
  rfl

theorem maxRow (i : Fin 4096) :
    Read.val_main_call2_v0 (F := Ideal) x0 x1 (ix1 i)
      = (Finset.univ : Finset (Fin 4096)).fold max ⊥ (fun j => lg x0 x1 i j) := by
  unfold Read.val_main_call2_v0
  rw [maxRow_read, Read.val_main_call2_cst_apply, Ideal.ofBits_def, bot_word]

theorem shiftRow (i j : Fin 4096) :
    Read.val_main_call2_v5 (F := Ideal) x0 x1 (ix2 i j)
      = lg x0 x1 i j - max ⊥ ((Finset.univ : Finset (Fin 4096)).fold max ⊥ (fun j' => lg x0 x1 i j')) := by
  have e4 : Read.idx_main_call2_v4 (ix2 i j) = ix2 i (0 : Fin 1) :=
    funext fun a => by match a with | ⟨0, _⟩ => rfl | ⟨1, _⟩ => rfl
  have e3 : Read.idx_main_call2_v3 (ix2 i (0 : Fin 1)) = ix1 i :=
    funext fun a => by match a with | ⟨0, _⟩ => rfl
  rw [Read.val_main_call2_v5_apply, Read.val_main_call2_v4_apply, e4, Read.val_main_call2_v3_apply, e3,
    Read.val_main_call2_v2_apply, Read.val_main_call2_v1_apply, Read.val_main_call2_cst_0_apply, maxRow,
    Ideal.ofBits_def, bot_word]
  rfl

theorem expSumRow (i : Fin 4096) :
    Read.val_main_call2_v7 (F := Ideal) x0 x1 (ix1 i)
      = ∑ j : Fin 4096, Ideal.exp (lg x0 x1 i j - max ⊥ ((Finset.univ : Finset (Fin 4096)).fold max ⊥ (fun j' => lg x0 x1 i j'))) := by
  rw [Read.val_main_call2_v7_apply, Read.val_main_call2_cst_1_apply, Ideal.ofBits_def, Ideal.ofBits_zero_f32, zero_add]
  refine Finset.sum_congr rfl fun j _ => ?_
  have e : Read.idx_main_call2_v7 (ix1 i) j = ix2 i j :=
    funext fun a => by match a with | ⟨0, _⟩ => rfl | ⟨1, _⟩ => rfl
  rw [e, Read.val_main_call2_v6_apply, shiftRow, Ideal.hostUnary_exp_def]

/-- The reference's row-wise log-softmax, entry by entry. -/
theorem lsmRow (i j : Fin 4096) :
    Read.val_main_v19 (F := Ideal) x0 x1 (ix2 i j) = Cert.Spec.rowLSM (lg x0 x1) i j := by
  have e10 : Read.idx_main_call2_v10 (ix2 i j) = ix2 i (0 : Fin 1) :=
    funext fun a => by match a with | ⟨0, _⟩ => rfl | ⟨1, _⟩ => rfl
  have e8 : Read.idx_main_call2_v8 (ix2 i (0 : Fin 1)) = ix1 i :=
    funext fun a => by match a with | ⟨0, _⟩ => rfl
  rw [Read.val_main_v19_apply, shiftRow, Read.val_main_call2_v10_apply, e10, Read.val_main_call2_v9_apply,
    Read.val_main_call2_v8_apply, e8, expSumRow, Ideal.hostUnary_log_def]
  rfl

theorem maxCol_read (y : (⟨S4096x4096, .f32⟩ : BufTy).Contents (Elt Ideal)) (init : (⟨S_, .f32⟩ : BufTy).Contents (Elt Ideal))
    (j : Fin 4096) :
    Host.reduce (FloatOps.maximumf (F := Ideal) (φ := .f32)) y init reducesTo_S4096x4096_S4096_d0 h_S_ (ix1 j)
      = (Finset.univ : Finset (Fin 4096)).fold max (init (Shape.Idx.first h_S_)) (fun k => y (ix2 k j)) := by
  have h : S4096x4096.Reduces [0] S4096 := by decide
  rw [Host.reduce_eq_fold_single (FloatOps.maximumf (F := Ideal) (φ := .f32)) y init reducesTo_S4096x4096_S4096_d0 h h_S_ (ix1 j)]
  have e : (y ∘ h.lift (ix1 j)) = fun k : Fin 4096 => y (ix2 k j) :=
    funext fun k => congrArg y (funext fun a => by match a with | ⟨0, _⟩ => rfl | ⟨1, _⟩ => rfl)
  rw [e]
  rfl

theorem maxCol (j : Fin 4096) :
    Read.val_main_call3_v0 (F := Ideal) x0 x1 (ix1 j)
      = (Finset.univ : Finset (Fin 4096)).fold max ⊥ (fun k => lg x0 x1 k j) := by
  unfold Read.val_main_call3_v0
  rw [maxCol_read, Read.val_main_call3_cst_apply, Ideal.ofBits_def, bot_word]

theorem shiftCol (k j : Fin 4096) :
    Read.val_main_call3_v5 (F := Ideal) x0 x1 (ix2 k j)
      = lg x0 x1 k j - max ⊥ ((Finset.univ : Finset (Fin 4096)).fold max ⊥ (fun k' => lg x0 x1 k' j)) := by
  have e4 : Read.idx_main_call3_v4 (ix2 k j) = ix2 (0 : Fin 1) j :=
    funext fun a => by match a with | ⟨0, _⟩ => rfl | ⟨1, _⟩ => rfl
  have e3 : Read.idx_main_call3_v3 (ix2 (0 : Fin 1) j) = ix1 j :=
    funext fun a => by match a with | ⟨0, _⟩ => rfl
  rw [Read.val_main_call3_v5_apply, Read.val_main_call3_v4_apply, e4, Read.val_main_call3_v3_apply, e3,
    Read.val_main_call3_v2_apply, Read.val_main_call3_v1_apply, Read.val_main_call3_cst_0_apply, maxCol,
    Ideal.ofBits_def, bot_word]
  rfl

theorem expSumCol (j : Fin 4096) :
    Read.val_main_call3_v7 (F := Ideal) x0 x1 (ix1 j)
      = ∑ k : Fin 4096, Ideal.exp (lg x0 x1 k j - max ⊥ ((Finset.univ : Finset (Fin 4096)).fold max ⊥ (fun k' => lg x0 x1 k' j))) := by
  rw [Read.val_main_call3_v7_apply, Read.val_main_call3_cst_1_apply, Ideal.ofBits_def, Ideal.ofBits_zero_f32, zero_add]
  refine Finset.sum_congr rfl fun k _ => ?_
  have e : Read.idx_main_call3_v7 (ix1 j) k = ix2 k j :=
    funext fun a => by match a with | ⟨0, _⟩ => rfl | ⟨1, _⟩ => rfl
  rw [e, Read.val_main_call3_v6_apply, shiftCol, Ideal.hostUnary_exp_def]

/-- The column-wise one is the row-wise one of the transposed logits. -/
theorem lsmCol (i j : Fin 4096) :
    Read.val_main_v25 (F := Ideal) x0 x1 (ix2 i j) = Cert.Spec.rowLSM (fun a b => lg x0 x1 b a) j i := by
  have e10 : Read.idx_main_call3_v10 (ix2 i j) = ix2 (0 : Fin 1) j :=
    funext fun a => by match a with | ⟨0, _⟩ => rfl | ⟨1, _⟩ => rfl
  have e8 : Read.idx_main_call3_v8 (ix2 (0 : Fin 1) j) = ix1 j :=
    funext fun a => by match a with | ⟨0, _⟩ => rfl
  rw [Read.val_main_v25_apply, shiftCol, Read.val_main_call3_v10_apply, e10, Read.val_main_call3_v9_apply,
    Read.val_main_call3_v8_apply, e8, expSumCol, Ideal.hostUnary_log_def]
  rfl

theorem sumRow (i : Fin 4096) :
    Read.val_main_v21 (F := Ideal) x0 x1 x2 (ix1 i)
      = ∑ j : Fin 4096, Cert.Spec.mask (labs x2) i j * Cert.Spec.rowLSM (lg x0 x1) i j := by
  rw [Read.val_main_v21_apply, Read.val_main_cst_2_apply, Ideal.ofBits_def, Ideal.ofBits_zero_f32, zero_add]
  refine Finset.sum_congr rfl fun j _ => ?_
  have e : Read.idx_main_v21 (ix1 i) j = ix2 i j :=
    funext fun a => by match a with | ⟨0, _⟩ => rfl | ⟨1, _⟩ => rfl
  rw [e, Read.val_main_v20_apply, mask_read, lsmRow, Ideal.mulf_def]

theorem totalRow (I : S_.Idx) :
    Read.val_main_v22 (F := Ideal) x0 x1 x2 I
      = ∑ i : Fin 4096, ∑ j : Fin 4096, Cert.Spec.mask (labs x2) i j * Cert.Spec.rowLSM (lg x0 x1) i j := by
  rw [Read.val_main_v22_apply, Read.val_main_cst_3_apply, Ideal.ofBits_def, Ideal.ofBits_zero_f32, zero_add, sum_idx1]
  exact Finset.sum_congr rfl fun i _ => sumRow x0 x1 x2 i

theorem sumCol (j : Fin 4096) :
    Read.val_main_v27 (F := Ideal) x0 x1 x2 (ix1 j)
      = ∑ i : Fin 4096, Cert.Spec.mask (labs x2) i j * Cert.Spec.rowLSM (fun a b => lg x0 x1 b a) j i := by
  rw [Read.val_main_v27_apply, Read.val_main_cst_5_apply, Ideal.ofBits_def, Ideal.ofBits_zero_f32, zero_add]
  refine Finset.sum_congr rfl fun i _ => ?_
  have e : Read.idx_main_v27 (ix1 j) i = ix2 i j :=
    funext fun a => by match a with | ⟨0, _⟩ => rfl | ⟨1, _⟩ => rfl
  rw [e, Read.val_main_v26_apply, mask_read, lsmCol, Ideal.mulf_def]

theorem totalCol (I : S_.Idx) :
    Read.val_main_v28 (F := Ideal) x0 x1 x2 I
      = ∑ j : Fin 4096, ∑ i : Fin 4096, Cert.Spec.mask (labs x2) i j * Cert.Spec.rowLSM (fun a b => lg x0 x1 b a) j i := by
  rw [Read.val_main_v28_apply, Read.val_main_cst_6_apply, Ideal.ofBits_def, Ideal.ofBits_zero_f32, zero_add, sum_idx1]
  exact Finset.sum_congr rfl fun j _ => sumCol x0 x1 x2 j

theorem result_lg (I : S_.Idx) :
    Read.val_main_v32 (F := Ideal) x0 x1 x2 I = Cert.Spec.refLoss (lg x0 x1) (Cert.Spec.mask (labs x2)) := by
  rw [Read.val_main_v32_apply, Read.val_main_cst_8_apply, Read.val_main_v31_apply, Read.val_main_v24_apply,
    Read.val_main_v23_apply, Read.val_main_cst_4_apply, totalRow, Read.val_main_v30_apply, Read.val_main_v29_apply,
    Read.val_main_cst_7_apply, totalCol]
  simp only [Ideal.ofBits_def, Cert.Spec.ofBits_4096, Cert.Spec.ofBits_2]
  rfl

/-- The reference's result is the specification's loss of its logits and label mask. -/
theorem result_eq (x0 x1 : (⟨S4096x768, .f32⟩ : BufTy).Contents (Elt Ideal)) (x2 : (⟨S4096, .i32⟩ : BufTy).Contents (Elt Ideal)) (i : S_.Idx) :
    Cert.ReferenceIdeal.Read.val_main_v32 (F := Ideal) x0 x1 x2 i
      = Cert.Spec.refLoss (refLogit (Cert.Spec.nrm (rows x0)) (Cert.Spec.nrm (rows x1))) (Cert.Spec.mask (labs x2)) := by
  rw [← lg_eq]
  exact result_lg x0 x1 x2 i

theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32) = (fun _ => Cert.Spec.refLoss (refLogit (Cert.Spec.nrm (rows (m ((c.tc : Thread nD τ).loc main_arg0)))) (Cert.Spec.nrm (rows (m ((c.tc : Thread nD τ).loc main_arg1))))) (Cert.Spec.mask (labs (m ((c.tc : Thread nD τ).loc main_arg2)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((after_eq m c).trans (funext fun i => result_eq _ _ _ i)), (h c).2⟩)
    (Cert.ReferenceIdeal.Value.run (F := Ideal) m ρ)

end Cert.ReferenceIdeal.RefValue

end
-- ==== Proof.Finite.lean ====
import proofs.«145934_j43250320671200_1_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Finite

open Idealize.ShloMosaic Cert.Pre_finite_inputs

theorem real_of_abs_lt_top (a : EReal) (h : Ideal.cmp .olt (max a (-a)) ⊤ = 1#1) : ∃ r : ℝ, a = (r : EReal) := by
  induction a using EReal.rec with
  | bot => exact absurd h (by simp [Ideal.cmp])
  | coe r => exact ⟨r, rfl⟩
  | top => exact absurd h (by simp [Ideal.cmp])

instance : Subsingleton S_.Idx := ⟨fun a b => funext fun d => d.elim0⟩

/-- Under the precondition every entry of both embedding arrays is a real. -/
theorem reals_of_pre [Facts] (x0 x1 : FVec Ideal S4096x768 .f32) (x2 : IVec S4096 32)
    (h : fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 (show IntOp.andi _ _ = 1#1 from h0)
  have top : (broadcastInDim S4096x768 ![] Facts.bcast_S_S4096x768 (constant (F := Ideal) S_ .f32 0x7F800000#32)) = fun _ => (⊤ : EReal) := by
    funext i
    show Ideal.ofBits .f32 0x7F800000#32 = ⊤
    simp [Ideal.ofBits, Ideal.ieee]
  refine ⟨fun i => ?_, fun i => ?_⟩
  · have e := Host.reduce_andi_all _ _ _ _ _ ha i
    rw [top] at e
    exact real_of_abs_lt_top (x0 i) e
  · have e := Host.reduce_andi_all _ _ _ _ _ hb i
    rw [top] at e
    exact real_of_abs_lt_top (x1 i) e

end Cert.Finite

end
-- ==== Proof.lean ====
/-
  A masked contrastive loss over 4096 pairs of embedding rows. The reference forms the 4096 x 4096 matrix of dot products of the
  normalised rows divided by the temperature and averages the masked negative log-softmax along rows and along columns. The
  kernel never forms the matrix: each of its two launches folds a row block's logits four column blocks at a time into a running
  maximum, a sum of exponentials rescaled to it, a masked count and a masked sum, and stores (m + log l) * c - s; the second
  launch swaps the two arrays. The kernel's scale is named as the reciprocal of the reference's temperature, so on finite inputs
  both sides are one real function of the normalised rows and the label mask.
-/
import proofs.«145934_j43250320671200_1_alg».proof.Defs
import proofs.«145934_j43250320671200_1_alg».proof.Proof.Gen.Kernel
import proofs.«145934_j43250320671200_1_alg».proof.Proof.Gen.KernelIdeal
import proofs.«145934_j43250320671200_1_alg».proof.Proof.Gen.ReferenceIdeal
import proofs.«145934_j43250320671200_1_alg».proof.Proof.Gen.Pre_finite_inputs
import proofs.«145934_j43250320671200_1_alg».proof.Proof.K.Frame
import proofs.«145934_j43250320671200_1_alg».proof.Proof.KI.KernelValue
import proofs.«145934_j43250320671200_1_alg».proof.Proof.RefValue
import proofs.«145934_j43250320671200_1_alg».proof.Proof.Finite
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Launch.frame m ρ

theorem frame_pi : Cert.frame_KernelIdeal := fun m ρ _ => Cert.KernelIdeal.Launch.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's two entries are the one named scale, at the two launches. -/
theorem preserves : Cert.preserves_Kernel_KernelIdeal :=
  ⟨IdealRules.named_const.statement Cert.KernelIdeal.κ "inv_temperature" .f32 0x41649249#32 ((134217728 / 9395241 : ℝ) : EReal) rfl,
   IdealRules.named_const.statement Cert.KernelIdeal.κ "inv_temperature" .f32 0x41649249#32 ((134217728 / 9395241 : ℝ) : EReal) rfl⟩

/-- From memories agreeing on the arguments both idealized programs end at the reference's loss of the arguments. -/
theorem algebraic : Cert.algebraic_KernelIdeal_ReferenceIdeal := by
  intro m ρ m' ρ' hpre hagree
  refine ⟨fun c => fun _ => Cert.Spec.refLoss
      (Cert.ReferenceIdeal.RefValue.refLogit
        (Cert.Spec.nrm (Cert.ReferenceIdeal.RefValue.rows (m ((c.tc : Thread Cert.KernelIdeal.nD Cert.KernelIdeal.τ).loc Cert.KernelIdeal.main_arg0))))
        (Cert.Spec.nrm (Cert.ReferenceIdeal.RefValue.rows (m ((c.tc : Thread Cert.KernelIdeal.nD Cert.KernelIdeal.τ).loc Cert.KernelIdeal.main_arg1)))))
      (Cert.Spec.mask (Cert.ReferenceIdeal.RefValue.labs (m ((c.tc : Thread Cert.KernelIdeal.nD Cert.KernelIdeal.τ).loc Cert.KernelIdeal.main_arg2)))), ?_, ?_⟩
  · refine (θ_run Cert.KernelIdeal.defs _ _).mono (fun _ h c => ⟨(h c).1.trans ?_, (h c).2⟩) (Cert.KernelIdeal.Launch.run_value (F := Ideal) m ρ)
    obtain ⟨h0, h1⟩ := Cert.Finite.reals_of_pre _ _ _ (hpre c)
    exact Cert.KernelIdeal.Launch.kernel_value m c h0 h1
  · refine (θ_run Cert.ReferenceIdeal.defs _ _).mono (fun _ h c => ⟨(h c).1.trans ?_, (h c).2⟩) (Cert.ReferenceIdeal.RefValue.run_value m' ρ')
    rw [(hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
